-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S1x1 : Shape := ⟨2, ![1, 1]⟩
abbrev S512x1024 : Shape := ⟨2, ![512, 1024]⟩
abbrev S4096x1 : Shape := ⟨2, ![4096, 1]⟩
abbrev S8x1x512 : Shape := ⟨3, ![8, 1, 512]⟩
abbrev S4096x128 : Shape := ⟨2, ![4096, 128]⟩
abbrev S8x512 : Shape := ⟨2, ![8, 512]⟩
abbrev S512 : Shape := ⟨1, ![512]⟩
abbrev S512x1 : Shape := ⟨2, ![512, 1]⟩
abbrev S1x512 : Shape := ⟨2, ![1, 512]⟩
abbrev S1x1x512 : Shape := ⟨3, ![1, 1, 512]⟩
abbrev S512x512 : Shape := ⟨2, ![512, 512]⟩
abbrev S512x128 : Shape := ⟨2, ![512, 128]⟩
abbrev S256x1024 : Shape := ⟨2, ![256, 1024]⟩
abbrev S256x256 : Shape := ⟨2, ![256, 256]⟩
abbrev S1x256 : Shape := ⟨2, ![1, 256]⟩
abbrev S256x128 : Shape := ⟨2, ![256, 128]⟩
abbrev S256x1 : Shape := ⟨2, ![256, 1]⟩
abbrev S1x1x256 : Shape := ⟨3, ![1, 1, 256]⟩
abbrev S256 : Shape := ⟨1, ![256]⟩
abbrev S4096 : Shape := ⟨1, ![4096]⟩
abbrev S1x8x512 : Shape := ⟨3, ![1, 8, 512]⟩
abbrev S1 : Shape := ⟨1, ![1]⟩
abbrev S1x1x1 : Shape := ⟨3, ![1, 1, 1]⟩
abbrev S_ : Shape := ⟨0, ![]⟩

abbrev nBuf : Space → Nat
  | .hbm => 3
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1, .f32⟩
  | .hbm, ⟨2, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1, .f32⟩
  | .local _ .vmem, ⟨3, _⟩ => ⟨S4096x1024, .bf16⟩
  | .local _ .vmem, ⟨4, _⟩ => ⟨S4096x1, .f32⟩
  | .local _ .vmem, ⟨5, _⟩ => ⟨S8x1x512, .f32⟩
  | .local _ .vmem, ⟨6, _⟩ => ⟨S4096x128, .f32⟩
  | .local _ .vmem, ⟨7, _⟩ => ⟨S8x1x512, .f32⟩
  | .local _ .vmem, ⟨8, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v4 : BitVec 32 := Scalar.muli arg0 c512_i32
  let v9 : Index := Scalar.indexCast v4
  let c0_2 : Index := 0#32
  ![v9.toNat, 0]
def k0_off2 (i : grid0.Coords) : Fin 2 → Nat :=
  let arg0 : BitVec 32 := BitVec.ofNat 32 (i 0).val
  let c512_i32 : BitVec 32 := 512#32
  let v4 : BitVec 32 := Scalar.muli arg0 c512_i32
  let v17 : Index := Scalar.indexCast v4
  let c0_4 : Index := 0#32
  ![v17.toNat, 0]
def k0_off3 (i : grid0.Coords) : Fin 3 → Nat :=
  let arg0 : BitVec 32 := BitVec.ofNat 32 (i 0).val
  let v22 : Index := Scalar.indexCast arg0
  let c0_5 : Index := 0#32
  let c0_6 : Index := 0#32
  ![v22.toNat, 0, 0]
def k0_cond2 (i : grid0.Coords) : BitVec 1 :=
  let arg0 : BitVec 32 := BitVec.ofNat 32 (i 0).val
  let c0_i32_7 : BitVec 32 := 0#32
  let v26 : BitVec 1 := Scalar.cmpi .sgt arg0 c0_i32_7
  let v27 : BitVec 32 := Scalar.extui v26
  let c0_i32_8 : BitVec 32 := 0#32
  let v28 : BitVec 1 := Scalar.cmpi .ne v27 c0_i32_8
  v28

def k0_off4 (i : grid0.Coords) : Fin 2 → Nat :=
  let arg0 : BitVec 32 := BitVec.ofNat 32 (i 0).val
  let c512_i32 : BitVec 32 := 512#32
  let v4 : BitVec 32 := Scalar.muli arg0 c512_i32
  let v133 : Index := Scalar.indexCast v4
  let c0_43 : Index := 0#32
  ![v133.toNat, 0]
def k0_cond3 (i : grid0.Coords) : BitVec 1 :=
  let arg0 : BitVec 32 := BitVec.ofNat 32 (i 0).val
  let c1_i32 : BitVec 32 := 1#32
  let v29 : BitVec 1 := Scalar.cmpi .sgt arg0 c1_i32
  let v30 : BitVec 32 := Scalar.extui v29
  let c0_i32_9 : BitVec 32 := 0#32
  let v31 : BitVec 1 := Scalar.cmpi .ne v30 c0_i32_9
  v31

def k0_off5 (i : grid0.Coords) : Fin 2 → Nat :=
  let arg0 : BitVec 32 := BitVec.ofNat 32 (i 0).val
  let c512_i32 : BitVec 32 := 512#32
  let v4 : BitVec 32 := Scalar.muli arg0 c512_i32
  let v133 : Index := Scalar.indexCast v4
  let c0_41 : Index := 0#32
  ![v133.toNat, 0]
def k0_cond4 (i : grid0.Coords) : BitVec 1 :=
  let arg0 : BitVec 32 := BitVec.ofNat 32 (i 0).val
  let c2_i32 : BitVec 32 := 2#32
  let v32 : BitVec 1 := Scalar.cmpi .sgt arg0 c2_i32
  let v33 : BitVec 32 := Scalar.extui v32
  let c0_i32_10 : BitVec 32 := 0#32
  let v34 : BitVec 1 := Scalar.cmpi .ne v33 c0_i32_10
  v34

def k0_off6 (i : grid0.Coords) : Fin 2 → Nat :=
  let arg0 : BitVec 32 := BitVec.ofNat 32 (i 0).val
  let c512_i32 : BitVec 32 := 512#32
  let v4 : BitVec 32 := Scalar.muli arg0 c512_i32
  let v133 : Index := Scalar.indexCast v4
  let c0_41 : Index := 0#32
  ![v133.toNat, 0]
def k0_cond5 (i : grid0.Coords) : BitVec 1 :=
  let arg0 : BitVec 32 := BitVec.ofNat 32 (i 0).val
  let c3_i32 : BitVec 32 := 3#32
  let v35 : BitVec 1 := Scalar.cmpi .sgt arg0 c3_i32
  let v36 : BitVec 32 := Scalar.extui v35
  let c0_i32_11 : BitVec 32 := 0#32
  let v37 : BitVec 1 := Scalar.cmpi .ne v36 c0_i32_11
  v37

def k0_off7 (i : grid0.Coords) : Fin 2 → Nat :=
  let arg0 : BitVec 32 := BitVec.ofNat 32 (i 0).val
  let c512_i32 : BitVec 32 := 512#32
  let v4 : BitVec 32 := Scalar.muli arg0 c512_i32
  let v133 : Index := Scalar.indexCast v4
  let c0_41 : Index := 0#32
  ![v133.toNat, 0]
def k0_cond6 (i : grid0.Coords) : BitVec 1 :=
  let arg0 : BitVec 32 := BitVec.ofNat 32 (i 0).val
  let c4_i32 : BitVec 32 := 4#32
  let v38 : BitVec 1 := Scalar.cmpi .sgt arg0 c4_i32
  let v39 : BitVec 32 := Scalar.extui v38
  let c0_i32_12 : BitVec 32 := 0#32
  let v40 : BitVec 1 := Scalar.cmpi .ne v39 c0_i32_12
  v40

def k0_off8 (i : grid0.Coords) : Fin 2 → Nat :=
  let arg0 : BitVec 32 := BitVec.ofNat 32 (i 0).val
  let c512_i32 : BitVec 32 := 512#32
  let v4 : BitVec 32 := Scalar.muli arg0 c512_i32
  let v133 : Index := Scalar.indexCast v4
  let c0_41 : Index := 0#32
  ![v133.toNat, 0]
def k0_cond7 (i : grid0.Coords) : BitVec 1 :=
  let arg0 : BitVec 32 := BitVec.ofNat 32 (i 0).val
  let c5_i32 : BitVec 32 := 5#32
  let v41 : BitVec 1 := Scalar.cmpi .sgt arg0 c5_i32
  let v42 : BitVec 32 := Scalar.extui v41
  let c0_i32_13 : BitVec 32 := 0#32
  let v43 : BitVec 1 := Scalar.cmpi .ne v42 c0_i32_13
  v43

def k0_off9 (i : grid0.Coords) : Fin 2 → Nat :=
  let arg0 : BitVec 32 := BitVec.ofNat 32 (i 0).val
  let c512_i32 : BitVec 32 := 512#32
  let v4 : BitVec 32 := Scalar.muli arg0 c512_i32
  let v133 : Index := Scalar.indexCast v4
  let c0_41 : Index := 0#32
  ![v133.toNat, 0]
def k0_cond8 (i : grid0.Coords) : BitVec 1 :=
  let arg0 : BitVec 32 := BitVec.ofNat 32 (i 0).val
  let c6_i32 : BitVec 32 := 6#32
  let v44 : BitVec 1 := Scalar.cmpi .sgt arg0 c6_i32
  let v45 : BitVec 32 := Scalar.extui v44
  let c0_i32_14 : BitVec 32 := 0#32
  let v46 : BitVec 1 := Scalar.cmpi .ne v45 c0_i32_14
  v46

def k0_off10 (i : grid0.Coords) : Fin 2 → Nat :=
  let arg0 : BitVec 32 := BitVec.ofNat 32 (i 0).val
  let c512_i32 : BitVec 32 := 512#32
  let v4 : BitVec 32 := Scalar.muli arg0 c512_i32
  let v133 : Index := Scalar.indexCast v4
  let c0_41 : Index := 0#32
  ![v133.toNat, 0]
def k0_off11 (i : grid0.Coords) (c0_i32_18 : BitVec 32) : Fin 2 → Nat :=
  let arg0 : BitVec 32 := BitVec.ofNat 32 (i 0).val
  let c512_i32_17 : BitVec 32 := 512#32
  let v58 : BitVec 32 := Scalar.muli arg0 c512_i32_17
  let v59 : BitVec 32 := Scalar.addi v58 c0_i32_18
  let v60 : Index := Scalar.indexCast v59
  let c0_19 : Index := 0#32
  ![v60.toNat, 0]
def k0_off12 (i : grid0.Coords) : Fin 3 → Nat :=
  let arg0 : BitVec 32 := BitVec.ofNat 32 (i 0).val
  let v91 : Index := Scalar.indexCast arg0
  let c0_25 : Index := 0#32
  let c0_26 : Index := 0#32
  ![v91.toNat, 0, 0]
def k0_cond9 (i : grid0.Coords) : BitVec 1 :=
  let arg0 : BitVec 32 := BitVec.ofNat 32 (i 0).val
  let c7_i32 : BitVec 32 := 7#32
  let v124 : BitVec 1 := Scalar.cmpi .eq arg0 c7_i32
  let v125 : BitVec 32 := Scalar.extui v124
  let c0_i32_36 : BitVec 32 := 0#32
  let v126 : BitVec 1 := Scalar.cmpi .ne v125 c0_i32_36
  v126

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S8x1x512_S8x1x512_0_0_0 : ∀ a, (![0, 0, 0] : Fin 3 → Nat) a + S8x1x512.size a ≤ S8x1x512.size a
  h_S8x1x512 : 0 < S8x1x512.numel
  shapeCasts_S8x1x512_S8x1x512 : S8x1x512.ShapeCasts S8x1x512
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  shapeCasts_S512x1024_S512x1024 : S512x1024.ShapeCasts S512x1024
  reduces_S512x1024_S512 : S512x1024.Reduces [1] S512
  shapeCasts_S512_S512x1 : S512.ShapeCasts S512x1
  shapeCasts_S512x1_S1x512 : S512x1.ShapeCasts S1x512
  h_S512x1 : 0 < S512x1.numel
  shapeCasts_S512x1_S512x1 : S512x1.ShapeCasts S512x1
  shapeCasts_S1x512_S1x1x512 : S1x512.ShapeCasts S1x1x512
  h_S1x1x512 : 0 < S1x1x512.numel
  shapeCasts_S1x1x512_S1x1x512 : S1x1x512.ShapeCasts S1x1x512
  inb_S4096x1024_S512x1024_0_0 : ∀ a, (![0, 0] : Fin 2 → Nat) a + S512x1024.size a ≤ S4096x1024.size a
  inb_S8x1x512_S1x1x512_0_0_0 : ∀ a, (![0, 0, 0] : Fin 3 → Nat) a + S1x1x512.size a ≤ S8x1x512.size a
  shapeCasts_S1x1x512_S1x512 : S1x1x512.ShapeCasts S1x512
  broadcasts_S1x512_S512x512 : S1x512.Broadcasts S512x512
  h_S512x128 : 0 < S512x128.numel
  slices_S512x512_o0_0_S512x128 : S512x512.Slices ![0, 0] S512x128
  slices_S512x512_o0_128_S512x128 : S512x512.Slices ![0, 128] S512x128
  slices_S512x512_o0_256_S512x128 : S512x512.Slices ![0, 256] S512x128
  slices_S512x512_o0_384_S512x128 : S512x512.Slices ![0, 384] S512x128
  shapeCasts_S512x128_S512x128 : S512x128.ShapeCasts S512x128
  broadcasts_S512x1_S512x512 : S512x1.Broadcasts S512x512
  reduces_S512x512_S512 : S512x512.Reduces [0] S512
  shapeCasts_S512_S1x512 : S512.ShapeCasts S1x512
  inb_S4096x1024_S512x1024_512_0 : ∀ a, (![512, 0] : Fin 2 → Nat) a + S512x1024.size a ≤ S4096x1024.size a
  inb_S8x1x512_S1x1x512_1_0_0 : ∀ a, (![1, 0, 0] : Fin 3 → Nat) a + S1x1x512.size a ≤ S8x1x512.size a
  inb_S4096x1024_S512x1024_1024_0 : ∀ a, (![1024, 0] : Fin 2 → Nat) a + S512x1024.size a ≤ S4096x1024.size a
  inb_S8x1x512_S1x1x512_2_0_0 : ∀ a, (![2, 0, 0] : Fin 3 → Nat) a + S1x1x512.size a ≤ S8x1x512.size a
  inb_S4096x1024_S512x1024_1536_0 : ∀ a, (![1536, 0] : Fin 2 → Nat) a + S512x1024.size a ≤ S4096x1024.size a
  inb_S8x1x512_S1x1x512_3_0_0 : ∀ a, (![3, 0, 0] : Fin 3 → Nat) a + S1x1x512.size a ≤ S8x1x512.size a
  inb_S4096x1024_S512x1024_2048_0 : ∀ a, (![2048, 0] : Fin 2 → Nat) a + S512x1024.size a ≤ S4096x1024.size a
  inb_S8x1x512_S1x1x512_4_0_0 : ∀ a, (![4, 0, 0] : Fin 3 → Nat) a + S1x1x512.size a ≤ S8x1x512.size a
  inb_S4096x1024_S512x1024_2560_0 : ∀ a, (![2560, 0] : Fin 2 → Nat) a + S512x1024.size a ≤ S4096x1024.size a
  inb_S8x1x512_S1x1x512_5_0_0 : ∀ a, (![5, 0, 0] : Fin 3 → Nat) a + S1x1x512.size a ≤ S8x1x512.size a
  inb_S4096x1024_S512x1024_3072_0 : ∀ a, (![3072, 0] : Fin 2 → Nat) a + S512x1024.size a ≤ S4096x1024.size a
  inb_S8x1x512_S1x1x512_6_0_0 : ∀ a, (![6, 0, 0] : Fin 3 → Nat) a + S1x1x512.size a ≤ S8x1x512.size a
  slices_S512x1024_o0_0_S256x1024 : S512x1024.Slices ![0, 0] S256x1024
  slices_S1x512_o0_0_S1x256 : S1x512.Slices ![0, 0] S1x256
  broadcasts_S1x256_S256x256 : S1x256.Broadcasts S256x256
  iota_S256x256_d0_w32 : S256x256.Iotas .tc 32 [0]
  iota_S256x256_d1_w32 : S256x256.Iotas .tc 32 [1]
  h_S256x128 : 0 < S256x128.numel
  slices_S256x256_o0_0_S256x128 : S256x256.Slices ![0, 0] S256x128
  slices_S256x256_o0_128_S256x128 : S256x256.Slices ![0, 128] S256x128
  shapeCasts_S256x128_S256x128 : S256x128.ShapeCasts S256x128
  slices_S512x1024_o256_0_S256x1024 : S512x1024.Slices ![256, 0] S256x1024
  slices_S512x1_o256_0_S256x1 : S512x1.Slices ![256, 0] S256x1
  broadcasts_S256x1_S256x256 : S256x1.Broadcasts S256x256
  h_S1x1x256 : 0 < S1x1x256.numel
  reduces_S256x256_S256 : S256x256.Reduces [0] S256
  shapeCasts_S256_S1x256 : S256.ShapeCasts S1x256
  shapeCasts_S1x256_S1x1x256 : S1x256.ShapeCasts S1x1x256
  shapeCasts_S1x1x256_S1x1x256 : S1x1x256.ShapeCasts S1x1x256
  slices_S1x512_o0_256_S1x256 : S1x512.Slices ![0, 256] S1x256
  reduces_S4096x128_S4096 : S4096x128.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  slices_S4096x1_o0_0_S512x1 : S4096x1.Slices ![0, 0] S512x1
  inb_S8x512_S1x512_0_0 : ∀ a, (![0, 0] : Fin 2 → Nat) a + S1x512.size a ≤ S8x512.size a
  h_S1x512 : 0 < S1x512.numel
  shapeCasts_S1x512_S1x512 : S1x512.ShapeCasts S1x512
  slices_S4096x1_o512_0_S512x1 : S4096x1.Slices ![512, 0] S512x1
  inb_S8x512_S1x512_1_0 : ∀ a, (![1, 0] : Fin 2 → Nat) a + S1x512.size a ≤ S8x512.size a
  slices_S4096x1_o1024_0_S512x1 : S4096x1.Slices ![1024, 0] S512x1
  inb_S8x512_S1x512_2_0 : ∀ a, (![2, 0] : Fin 2 → Nat) a + S1x512.size a ≤ S8x512.size a
  slices_S4096x1_o1536_0_S512x1 : S4096x1.Slices ![1536, 0] S512x1
  inb_S8x512_S1x512_3_0 : ∀ a, (![3, 0] : Fin 2 → Nat) a + S1x512.size a ≤ S8x512.size a
  slices_S4096x1_o2048_0_S512x1 : S4096x1.Slices ![2048, 0] S512x1
  inb_S8x512_S1x512_4_0 : ∀ a, (![4, 0] : Fin 2 → Nat) a + S1x512.size a ≤ S8x512.size a
  slices_S4096x1_o2560_0_S512x1 : S4096x1.Slices ![2560, 0] S512x1
  inb_S8x512_S1x512_5_0 : ∀ a, (![5, 0] : Fin 2 → Nat) a + S1x512.size a ≤ S8x512.size a
  slices_S4096x1_o3072_0_S512x1 : S4096x1.Slices ![3072, 0] S512x1
  inb_S8x512_S1x512_6_0 : ∀ a, (![6, 0] : Fin 2 → Nat) a + S1x512.size a ≤ S8x512.size a
  slices_S4096x1_o3584_0_S512x1 : S4096x1.Slices ![3584, 0] S512x1
  inb_S8x1x512_S1x1x512_7_0_0 : ∀ a, (![7, 0, 0] : Fin 3 → Nat) a + S1x1x512.size a ≤ S8x1x512.size a
  inb_S8x512_S1x512_7_0 : ∀ a, (![7, 0] : Fin 2 → Nat) a + S1x512.size a ≤ S8x512.size a
  inb_S8x512_S8x512_0_0 : ∀ a, (![0, 0] : Fin 2 → Nat) a + S8x512.size a ≤ S8x512.size a
  h_S8x512 : 0 < S8x512.numel
  shapeCasts_S8x512_S1x8x512 : S8x512.ShapeCasts S1x8x512
  reduces_S1x8x512_S1 : S1x8x512.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S512x1024_S512x1024_S512x512_1_1_0_0_n_n_wf : DotDims.WF S512x1024 S512x1024 S512x512 [1] [1] [0] [0] [] []
  dot_S256x1024_S256x1024_S256x256_1_1_0_0_n_n_wf : DotDims.WF S256x1024 S256x1024 S256x256 [1] [1] [0] [0] [] []
  hrank0 : 0 < grid0.rank
  k0_off1_inb : ∀ i : grid0.Coords, ∀ a, (k0_off1 i) a + S512x1024.size a ≤ S4096x1024.size a
  k0_off1_packedbf16 : ∀ i : grid0.Coords, (Rect.unit (s := S4096x1024) (k0_off1 i) S512x1024.size (k0_off1_inb i)).PackedRows (EltTy.packing .bf16)
  k0_off2_inb : ∀ i : grid0.Coords, ∀ a, (k0_off2 i) a + S512x1.size a ≤ S4096x1.size a
  k0_off3_inb : ∀ i : grid0.Coords, ∀ a, (k0_off3 i) a + S1x1x512.size a ≤ S8x1x512.size a
  k0_off4_inb : ∀ i : grid0.Coords, ∀ (k0_h2 : k0_cond2 i = 1#1), ∀ a, (k0_off4 i) a + S512x128.size a ≤ S4096x128.size a
  k0_off5_inb : ∀ i : grid0.Coords, ∀ (k0_h3 : k0_cond3 i = 1#1), ∀ a, (k0_off5 i) a + S512x128.size a ≤ S4096x128.size a
  k0_off6_inb : ∀ i : grid0.Coords, ∀ (k0_h4 : k0_cond4 i = 1#1), ∀ a, (k0_off6 i) a + S512x128.size a ≤ S4096x128.size a
  k0_off7_inb : ∀ i : grid0.Coords, ∀ (k0_h5 : k0_cond5 i = 1#1), ∀ a, (k0_off7 i) a + S512x128.size a ≤ S4096x128.size a
  k0_off8_inb : ∀ i : grid0.Coords, ∀ (k0_h6 : k0_cond6 i = 1#1), ∀ a, (k0_off8 i) a + S512x128.size a ≤ S4096x128.size a
  k0_off9_inb : ∀ i : grid0.Coords, ∀ (k0_h7 : k0_cond7 i = 1#1), ∀ a, (k0_off9 i) a + S512x128.size a ≤ S4096x128.size a
  k0_off10_inb : ∀ i : grid0.Coords, ∀ (k0_h8 : k0_cond8 i = 1#1), ∀ a, (k0_off10 i) a + S512x128.size a ≤ S4096x128.size a
  k0_off11_inb : ∀ i : grid0.Coords, ∀ (r : Fin 2), ∀ a, (k0_off11 i (BitVec.ofNat 32 (256 * r.val))) a + S256x128.size a ≤ S4096x128.size a
  k0_off12_inb : ∀ i : grid0.Coords, ∀ a, (k0_off12 i) a + S1x1x256.size a ≤ S8x1x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond9 i == 1#1) | ⟨_ + 2, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S1024x4096 : Shape := ⟨2, ![1024, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S4096, .f32⟩
  | .hbm, ⟨4, _⟩ => ⟨S1024x4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  transposes_S4096x1024_S1024x4096_1_0 : S4096x1024.Transposes [1, 0] S1024x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KBFacts.lean ====
import proofs.«141847_g74552042324289_cont_9to1_m_1244_12_alg».proof.Proof.Gen.Kernel.Frame

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condI (i : grid0.Coords) : Prop := (Scalar.cmpi .ne (Scalar.extui (Scalar.cmpi .eq (BitVec.ofNat 32 (i 0).val) 0#32)) 0#32) = 1#1

theorem hcondI : ∀ t : Fin cfg0.N, condI (grid0.coords t) ↔ t.val = 0 :=
  (by decide +kernel : ∀ t : Fin grid0.N, condI (grid0.coords t) ↔ t.val = 0)
theorem hcond2 : ∀ t : Fin cfg0.N, k0_cond2 (grid0.coords t) = 1#1 ↔ 1 ≤ t.val :=
  (by decide +kernel : ∀ t : Fin grid0.N, k0_cond2 (grid0.coords t) = 1#1 ↔ 1 ≤ t.val)
theorem hcond3 : ∀ t : Fin cfg0.N, k0_cond3 (grid0.coords t) = 1#1 ↔ 2 ≤ t.val :=
  (by decide +kernel : ∀ t : Fin grid0.N, k0_cond3 (grid0.coords t) = 1#1 ↔ 2 ≤ t.val)
theorem hcond4 : ∀ t : Fin cfg0.N, k0_cond4 (grid0.coords t) = 1#1 ↔ 3 ≤ t.val :=
  (by decide +kernel : ∀ t : Fin grid0.N, k0_cond4 (grid0.coords t) = 1#1 ↔ 3 ≤ t.val)
theorem hcond5 : ∀ t : Fin cfg0.N, k0_cond5 (grid0.coords t) = 1#1 ↔ 4 ≤ t.val :=
  (by decide +kernel : ∀ t : Fin grid0.N, k0_cond5 (grid0.coords t) = 1#1 ↔ 4 ≤ t.val)
theorem hcond6 : ∀ t : Fin cfg0.N, k0_cond6 (grid0.coords t) = 1#1 ↔ 5 ≤ t.val :=
  (by decide +kernel : ∀ t : Fin grid0.N, k0_cond6 (grid0.coords t) = 1#1 ↔ 5 ≤ t.val)
theorem hcond7 : ∀ t : Fin cfg0.N, k0_cond7 (grid0.coords t) = 1#1 ↔ 6 ≤ t.val :=
  (by decide +kernel : ∀ t : Fin grid0.N, k0_cond7 (grid0.coords t) = 1#1 ↔ 6 ≤ t.val)
theorem hcond8 : ∀ t : Fin cfg0.N, k0_cond8 (grid0.coords t) = 1#1 ↔ 7 ≤ t.val :=
  (by decide +kernel : ∀ t : Fin grid0.N, k0_cond8 (grid0.coords t) = 1#1 ↔ 7 ≤ t.val)
theorem hcond9 : ∀ t : Fin cfg0.N, k0_cond9 (grid0.coords t) = 1#1 ↔ t.val = 7 :=
  (by decide +kernel : ∀ t : Fin grid0.N, k0_cond9 (grid0.coords t) = 1#1 ↔ t.val = 7)

theorem hcoord0 : ∀ t : Fin cfg0.N, ((grid0.coords t) 0).val = t.val :=
  (by decide +kernel : ∀ t : Fin grid0.N, ((grid0.coords t) 0).val = t.val)

theorem liveAt0_0 : ∀ t : Fin cfg0.N, cfg0.idle 0 (grid0.coords t) = false := by decide +kernel

theorem idleAt0_1 : ∀ t : Fin cfg0.N, t.val ≠ 7 → cfg0.idle 1 (grid0.coords t) = true := by decide +kernel

theorem noFlush0_1 : ∀ t : Fin cfg0.N, t.val ≠ 7 → (cfg0.win 1).flush t = false := by decide +kernel

theorem liveAt0_1 : ∀ t : Fin cfg0.N, t.val = 7 → cfg0.idle 1 (grid0.coords t) = false := by decide +kernel

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)

abbrev scM3 : Memref sig .tc .vmem S4096x1024 .bf16 := Memref.whole cc0_scratch0
abbrev scM4 : Memref sig .tc .vmem S4096x1 .f32 := Memref.whole cc0_scratch1
abbrev scM5 : Memref sig .tc .vmem S8x1x512 .f32 := Memref.whole cc0_scratch2
abbrev scM6 : Memref sig .tc .vmem S4096x128 .f32 := Memref.whole cc0_scratch3
abbrev scM7 : Memref sig .tc .vmem S8x1x512 .f32 := Memref.whole cc0_scratch4
abbrev scM8 : Memref sig .tc .vmem S8x512 .f32 := Memref.whole cc0_scratch5

theorem PhiA0_eq (c : Dev nD) :
    (Pipeline.ΦA spec0 c : sProp 𝕄)
      = iprop(iprop((∃ d, owns (c : Thread nD τ) scM3 fullShare d) ∗ (∃ d, owns (c : Thread nD τ) scM4 fullShare d) ∗ (∃ d, owns (c : Thread nD τ) scM5 fullShare d)
          ∗ (∃ d, owns (c : Thread nD τ) scM6 fullShare d) ∗ (∃ d, owns (c : Thread nD τ) scM7 fullShare d) ∗ (∃ d, owns (c : Thread nD τ) scM8 fullShare d)) ∗ (∃ r, prngReg c r)) := by
  unfold Pipeline.ΦA; rw [scopedRest0_eq]; simp only [scM3, scM4, scM5, scM6, scM7, scM8, owns_whole]; try rfl

end Cert.Kernel.Gen

end
-- ==== Proof.BitsRun.lean ====
import proofs.«141847_g74552042324289_cont_9to1_m_1244_12_alg».proof.Proof.KBFacts
import proofs.«141847_g74552042324289_cont_9to1_m_1244_12_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S512x1024 .f32) (harg1 : arg1.IsWhole) (arg2 : Memref sig .tc .vmem S1x1 .f32) (harg2 : arg2.IsWhole) (arg3 : Memref sig .tc .vmem S4096x1024 .bf16) (harg3 : arg3.IsWhole) (arg4 : Memref sig .tc .vmem S4096x1 .f32) (harg4 : arg4.IsWhole) (arg5 : Memref sig .tc .vmem S8x1x512 .f32) (harg5 : arg5.IsWhole) (arg6 : Memref sig .tc .vmem S4096x128 .f32) (harg6 : arg6.IsWhole) (arg7 : Memref sig .tc .vmem S8x1x512 .f32) (harg7 : arg7.IsWhole) (arg8 : Memref sig .tc .vmem S8x512 .f32) (harg8 : arg8.IsWhole)

/-- What the body's run on whole memrefs gives at a point between the first and the last: the input block and the result window's buffer as they were, each scratch operand at the pieces the body stored (the latest first) over what it held. -/
abbrev RunT (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) : Type :=
    Σ' (L3 : List (View.Piece (Elt F) S4096x1024 .bf16)) (L4 : List (View.Piece (Elt F) S4096x1 .f32)) (L5 : List (View.Piece (Elt F) S8x1x512 .f32)) (L6 : List (View.Piece (Elt F) S4096x128 .f32)) (L7 : List (View.Piece (Elt F) S8x1x512 .f32)), { L8 : List (View.Piece (Elt F) S8x512 .f32) //
      ∀ (xi2 : Vec F S1x1 .f32) (E : Set ℕ) (K : PUnit → sProp 𝕄),
        iprop(owns (c : Thread nD τ) arg1 fullShare x0 ∗ owns (c : Thread nD τ) arg2 fullShare xi2
            ∗ owns (c : Thread nD τ) arg3 fullShare xs3 ∗ owns (c : Thread nD τ) arg4 fullShare xs4 ∗ owns (c : Thread nD τ) arg5 fullShare xs5
            ∗ owns (c : Thread nD τ) arg6 fullShare xs6 ∗ owns (c : Thread nD τ) arg7 fullShare xs7 ∗ owns (c : Thread nD τ) arg8 fullShare xs8
            ∗ (iprop(owns (c : Thread nD τ) arg1 fullShare x0 ∗ owns (c : Thread nD τ) arg2 fullShare xi2
                ∗ (arg3.view.loc (c : Thread nD τ) ↦[arg3.view.set]{fullShare} arg3.view.writes (Elt F) (harg3.unread xs3) L3)
                ∗ (arg4.view.loc (c : Thread nD τ) ↦[arg4.view.set]{fullShare} arg4.view.writes (Elt F) (harg4.unread xs4) L4)
                ∗ (arg5.view.loc (c : Thread nD τ) ↦[arg5.view.set]{fullShare} arg5.view.writes (Elt F) (harg5.unread xs5) L5)
                ∗ (arg6.view.loc (c : Thread nD τ) ↦[arg6.view.set]{fullShare} arg6.view.writes (Elt F) (harg6.unread xs6) L6)
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)) -∗ K ⟨⟩))
          ⊢ wp frame (wpE (defs₀ (F := F)) Variants.none c none) E (cc0__koleo_kernel i arg1 harg1 arg2 harg2 arg3 harg3 arg4 harg4 arg5 harg5 arg6 harg6 arg7 harg7 arg8 harg8) K }

set_option maxHeartbeats 16000000 in
/-- Point 0: two scratch operands are loaded before the fills cover them, so their pieces lie over contents nothing names. -/
noncomputable def kernelRun0_A (hg : (i 0).val = 0) (hI : condI i) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    Σ' (L3 : List (View.Piece (Elt F) S4096x1024 .bf16)) (L4 : List (View.Piece (Elt F) S4096x1 .f32)) (L5 : List (View.Piece (Elt F) S8x1x512 .f32)) (L6 : List (View.Piece (Elt F) S4096x128 .f32)) (L7 : List (View.Piece (Elt F) S8x1x512 .f32)), { L8 : List (View.Piece (Elt F) S8x512 .f32) //
      ∀ (xi2 : Vec F S1x1 .f32) (E : Set ℕ) (K : PUnit → sProp 𝕄),
        iprop(owns (c : Thread nD τ) arg1 fullShare x0 ∗ owns (c : Thread nD τ) arg2 fullShare xi2
            ∗ owns (c : Thread nD τ) arg3 fullShare xs3 ∗ owns (c : Thread nD τ) arg4 fullShare xs4 ∗ owns (c : Thread nD τ) arg5 fullShare xs5
            ∗ owns (c : Thread nD τ) arg6 fullShare xs6 ∗ owns (c : Thread nD τ) arg7 fullShare xs7 ∗ owns (c : Thread nD τ) arg8 fullShare xs8
            ∗ (iprop(owns (c : Thread nD τ) arg1 fullShare x0 ∗ owns (c : Thread nD τ) arg2 fullShare xi2
                ∗ (arg3.view.loc (c : Thread nD τ) ↦[arg3.view.set]{fullShare} arg3.view.writes (Elt F) (harg3.unread xs3) L3)
                ∗ (arg4.view.loc (c : Thread nD τ) ↦[arg4.view.set]{fullShare} arg4.view.writes (Elt F) (harg4.unread xs4) L4)
                ∗ (arg5.view.loc (c : Thread nD τ) ↦[arg5.view.set]{fullShare} arg5.view.writes (Elt F) (harg5.unread xs5) L5)
                ∗ (∃ f6, arg6.view.loc (c : Thread nD τ) ↦[arg6.view.set]{fullShare} arg6.view.writes (Elt F) f6 L6)
                ∗ (∃ f7, arg7.view.loc (c : Thread nD τ) ↦[arg7.view.set]{fullShare} arg7.view.writes (Elt F) f7 L7)
                ∗ (arg8.view.loc (c : Thread nD τ) ↦[arg8.view.set]{fullShare} arg8.view.writes (Elt F) (harg8.unread xs8) L8)) -∗ K ⟨⟩))
          ⊢ wp frame (wpE (defs₀ (F := F)) Variants.none c none) E (cc0__koleo_kernel i arg1 harg1 arg2 harg2 arg3 harg3 arg4 harg4 arg5 harg5 arg6 harg6 arg7 harg7 arg8 harg8) K } := by
  refine ⟨?_, ?_, ?_, ?_, ?_, [], fun xi2 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    isplitl [H6]; · iexists _; iexact H6
    isplitl [H7]; · iexists _; iexact H7
    iexact H8

set_option maxHeartbeats 16000000 in
noncomputable def kernelRun0_B (hg : (i 0).val = 1) (hI : ¬ condI i) (h2 : k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    RunT c i arg1 harg1 arg2 harg2 arg3 harg3 arg4 harg4 arg5 harg5 arg6 harg6 arg7 harg7 arg8 harg8 x0 xs3 xs4 xs5 xs6 xs7 xs8 := by
  refine ⟨?_, ?_, ?_, ?_, ?_, [], fun xi2 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    isplitl [H6]; · iexact H6
    isplitl [H7]; · iexact H7
    iexact H8

set_option maxHeartbeats 16000000 in
noncomputable def kernelRun0_C (hg : (i 0).val = 2) (hI : ¬ condI i) (h2 : k0_cond2 i = 1#1) (h3 : k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    RunT c i arg1 harg1 arg2 harg2 arg3 harg3 arg4 harg4 arg5 harg5 arg6 harg6 arg7 harg7 arg8 harg8 x0 xs3 xs4 xs5 xs6 xs7 xs8 := by
  refine ⟨?_, ?_, ?_, ?_, ?_, [], fun xi2 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    isplitl [H6]; · iexact H6
    isplitl [H7]; · iexact H7
    iexact H8

set_option maxHeartbeats 16000000 in
noncomputable def kernelRun0_D (hg : (i 0).val = 3) (hI : ¬ condI i) (h2 : k0_cond2 i = 1#1) (h3 : k0_cond3 i = 1#1) (h4 : k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    RunT c i arg1 harg1 arg2 harg2 arg3 harg3 arg4 harg4 arg5 harg5 arg6 harg6 arg7 harg7 arg8 harg8 x0 xs3 xs4 xs5 xs6 xs7 xs8 := by
  refine ⟨?_, ?_, ?_, ?_, ?_, [], fun xi2 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    isplitl [H6]; · iexact H6
    isplitl [H7]; · iexact H7
    iexact H8

set_option maxHeartbeats 16000000 in
noncomputable def kernelRun0_E (hg : (i 0).val = 4) (hI : ¬ condI i) (h2 : k0_cond2 i = 1#1) (h3 : k0_cond3 i = 1#1) (h4 : k0_cond4 i = 1#1) (h5 : k0_cond5 i = 1#1) (h6 : ¬ k0_cond6 i = 1#1) (h7 : ¬ k0_cond7 i = 1#1) (h8 : ¬ k0_cond8 i = 1#1) (h9 : ¬ k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    RunT c i arg1 harg1 arg2 harg2 arg3 harg3 arg4 harg4 arg5 harg5 arg6 harg6 arg7 harg7 arg8 harg8 x0 xs3 xs4 xs5 xs6 xs7 xs8 := by
  refine ⟨?_, ?_, ?_, ?_, ?_, [], fun xi2 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    isplitl [H6]; · iexact H6
    isplitl [H7]; · iexact H7
    iexact H8

set_option maxHeartbeats 16000000 in
noncomputable def kernelRun0_F (hg : (i 0).val = 5) (hI : ¬ condI i) (h2 : k0_cond2 i = 1#1) (h3 : k0_cond3 i = 1#1) (h4 : k0_cond4 i = 1#1) (h5 : k0_cond5 i = 1#1) (h6 : k0_cond6 i = 1#1) (h7 : ¬ k0_cond7 i = 1#1) (h8 : ¬ k0_cond8 i = 1#1) (h9 : ¬ k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    RunT c i arg1 harg1 arg2 harg2 arg3 harg3 arg4 harg4 arg5 harg5 arg6 harg6 arg7 harg7 arg8 harg8 x0 xs3 xs4 xs5 xs6 xs7 xs8 := by
  refine ⟨?_, ?_, ?_, ?_, ?_, [], fun xi2 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    isplitl [H6]; · iexact H6
    isplitl [H7]; · iexact H7
    iexact H8

set_option maxHeartbeats 16000000 in
noncomputable def kernelRun0_G (hg : (i 0).val = 6) (hI : ¬ condI i) (h2 : k0_cond2 i = 1#1) (h3 : k0_cond3 i = 1#1) (h4 : k0_cond4 i = 1#1) (h5 : k0_cond5 i = 1#1) (h6 : k0_cond6 i = 1#1) (h7 : k0_cond7 i = 1#1) (h8 : ¬ k0_cond8 i = 1#1) (h9 : ¬ k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    RunT c i arg1 harg1 arg2 harg2 arg3 harg3 arg4 harg4 arg5 harg5 arg6 harg6 arg7 harg7 arg8 harg8 x0 xs3 xs4 xs5 xs6 xs7 xs8 := by
  refine ⟨?_, ?_, ?_, ?_, ?_, [], fun xi2 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    isplitl [H6]; · iexact H6
    isplitl [H7]; · iexact H7
    iexact H8

set_option maxHeartbeats 16000000 in
/-- Point 7: the closing stage also stores the result window's cell. -/
noncomputable def kernelRun0_H (hg : (i 0).val = 7) (hI : ¬ condI i) (h2 : k0_cond2 i = 1#1) (h3 : k0_cond3 i = 1#1) (h4 : k0_cond4 i = 1#1) (h5 : k0_cond5 i = 1#1) (h6 : k0_cond6 i = 1#1) (h7 : k0_cond7 i = 1#1) (h8 : k0_cond8 i = 1#1) (h9 : k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    Σ' (L2 : List (View.Piece (Elt F) S1x1 .f32)) (L3 : List (View.Piece (Elt F) S4096x1024 .bf16)) (L4 : List (View.Piece (Elt F) S4096x1 .f32)) (L5 : List (View.Piece (Elt F) S8x1x512 .f32)) (L6 : List (View.Piece (Elt F) S4096x128 .f32)) (L7 : List (View.Piece (Elt F) S8x1x512 .f32)), { L8 : List (View.Piece (Elt F) S8x512 .f32) //
      ∀ (E : Set ℕ) (K : PUnit → sProp 𝕄),
        iprop(owns (c : Thread nD τ) arg1 fullShare x0 ∗ (∃ d, owns (c : Thread nD τ) arg2 fullShare d)
            ∗ owns (c : Thread nD τ) arg3 fullShare xs3 ∗ owns (c : Thread nD τ) arg4 fullShare xs4 ∗ owns (c : Thread nD τ) arg5 fullShare xs5
            ∗ owns (c : Thread nD τ) arg6 fullShare xs6 ∗ owns (c : Thread nD τ) arg7 fullShare xs7 ∗ owns (c : Thread nD τ) arg8 fullShare xs8
            ∗ (iprop(owns (c : Thread nD τ) arg1 fullShare x0 ∗ (∃ f2, arg2.view.loc (c : Thread nD τ) ↦[arg2.view.set]{fullShare} arg2.view.writes (Elt F) f2 L2)
                ∗ (arg3.view.loc (c : Thread nD τ) ↦[arg3.view.set]{fullShare} arg3.view.writes (Elt F) (harg3.unread xs3) L3)
                ∗ (arg4.view.loc (c : Thread nD τ) ↦[arg4.view.set]{fullShare} arg4.view.writes (Elt F) (harg4.unread xs4) L4)
                ∗ (arg5.view.loc (c : Thread nD τ) ↦[arg5.view.set]{fullShare} arg5.view.writes (Elt F) (harg5.unread xs5) L5)
                ∗ (arg6.view.loc (c : Thread nD τ) ↦[arg6.view.set]{fullShare} arg6.view.writes (Elt F) (harg6.unread xs6) L6)
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)) -∗ K ⟨⟩))
          ⊢ wp frame (wpE (defs₀ (F := F)) Variants.none c none) E (cc0__koleo_kernel i arg1 harg1 arg2 harg2 arg3 harg3 arg4 harg4 arg5 harg5 arg6 harg6 arg7 harg7 arg8 harg8) K } := by
  refine ⟨?_, ?_, ?_, ?_, ?_, ?_, ?_, fun E K => ?run⟩
  case run =>
    simp only [cc0__koleo_kernel_eq_skeleton]; unfold cc0__koleo_kernel_skel
    unfold owns
    iintro ⟨⟨%f1, %hf1, H1⟩, ⟨%d2, %f2, -, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]; · iexists _; iexact H2
    isplitl [H3]; · iexact H3
    isplitl [H4]; · iexact H4
    isplitl [H5]; · iexact H5
    isplitl [H6]; · iexact H6
    isplitl [H7]; · iexact H7
    iexact H8

end Cert.Kernel.Gen

end
-- ==== Proof.KBBody.lean ====
import proofs.«141847_g74552042324289_cont_9to1_m_1244_12_alg».proof.Proof.KBFacts
import proofs.«141847_g74552042324289_cont_9to1_m_1244_12_alg».proof.Proof.BitsRun
import proofs.«141847_g74552042324289_cont_9to1_m_1244_12_alg».proof.Proof.Gen.Kernel.Frame

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 2 → Bool := fun w => w.val == 1

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  before0_0_of m (dats m 0 c) (A_eq m c 0) (after0_0 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d))

def bodyPost (c : Dev nD) (t : Fin cfg0.N) : sProp 𝕄 :=
  iprop((dats m 0 c).Φ t.succ ∗ (dats m 0 c).owesAt () t.succ
    ∗ (dats m 0 c).leavesExact 0 t
    ∗ (∃ d, owns (c : Thread nD τ) (ms0_1 t) fullShare d))

theorem owns_any {S : Shape} {e : EltTy} (c : Dev nD) (M : Memref sig .tc .vmem S e) (f : M.view.ty.Contents (Elt F)) :
    (M.view.loc (c : Thread nD τ) ↦[M.view.set]{fullShare} f : sProp 𝕄) ⊢ iprop(∃ d, owns (c : Thread nD τ) M fullShare d) := by
  iintro H
  iexists _
  iapply (owns_intro (c : Thread nD τ) M fullShare f)
  iexact H

/-- This frame claims no values: from any contents the body runs without a fault and returns every operand at some contents. -/
def Runs (c : Dev nD) (t : Fin cfg0.N) : Prop :=
  ∀ (s3 : Vec F S4096x1024 .bf16) (s4 : Vec F S4096x1 .f32) (s5 : Vec F S8x1x512 .f32) (s6 : Vec F S4096x128 .f32)
    (s7 : Vec F S8x1x512 .f32) (s8 : Vec F S8x512 .f32) (d1 : Vec F S1x1 .f32) (K : PUnit → sProp 𝕄),
    iprop(owns (c : Thread nD τ) (ms0_0 t) fullShare (iblk m c 0 t) ∗ owns (c : Thread nD τ) (ms0_1 t) fullShare d1
        ∗ owns (c : Thread nD τ) scM3 fullShare s3 ∗ owns (c : Thread nD τ) scM4 fullShare s4 ∗ owns (c : Thread nD τ) scM5 fullShare s5
        ∗ owns (c : Thread nD τ) scM6 fullShare s6 ∗ owns (c : Thread nD τ) scM7 fullShare s7 ∗ owns (c : Thread nD τ) scM8 fullShare s8
        ∗ (iprop(owns (c : Thread nD τ) (ms0_0 t) fullShare (iblk m c 0 t) ∗ (∃ d, owns (c : Thread nD τ) (ms0_1 t) fullShare d)
            ∗ (∃ d, owns (c : Thread nD τ) scM3 fullShare d) ∗ (∃ d, owns (c : Thread nD τ) scM4 fullShare d) ∗ (∃ d, owns (c : Thread nD τ) scM5 fullShare d)
            ∗ (∃ d, owns (c : Thread nD τ) scM6 fullShare d) ∗ (∃ d, owns (c : Thread nD τ) scM7 fullShare d) ∗ (∃ d, owns (c : Thread nD τ) scM8 fullShare d)) -∗ K ⟨⟩))
      ⊢ wp frame (wpE (defs₀ (F := F)) Variants.none c none) Set.univ (bodyAt0 t) K

theorem sound_of_runs (c : Dev nD) (t : Fin cfg0.N) (h : Runs m c t) :
    bodyPre m c t ⊢ wp frame (wpE (defs₀ (F := F)) Variants.none c none) Set.univ (bodyAt0 t) (fun _ => bodyPost m c t) := by
  unfold bodyPre bodyPost
  simp only [before0_0]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after0_0]
  rw [PhiA0_eq]
  iintro ⟨⟨⟨⟨%s3, HS3⟩, ⟨%s4, HS4⟩, ⟨%s5, HS5⟩, ⟨%s6, HS6⟩, ⟨%s7, HS7⟩, ⟨%s8, HS8⟩⟩, Hg⟩, Ho, ⟨%d0, H0⟩, ⟨%d1, H1⟩⟩
  iapply (h s3 s4 s5 s6 s7 s8 d1 _)
  isplitl [H0]; · iexact H0
  isplitl [H1]; · iexact H1
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, HS3, HS4, HS5, HS6, HS7, HS8⟩
  isplitl [HS3 HS4 HS5 HS6 HS7 HS8 Hg]
  · isplitr [Hg]
    swap; · iexact Hg
    isplitl [HS3]; · iexact HS3
    isplitl [HS4]; · iexact HS4
    isplitl [HS5]; · iexact HS5
    isplitl [HS6]; · iexact HS6
    isplitl [HS7]; · iexact HS7
    iexact HS8
  isplitl [Ho]; · iexact Ho
  isplitl [H0]; · iexact H0
  iexact H1

set_option maxHeartbeats 4000000 in

theorem runs_A (c : Dev nD) (t : Fin cfg0.N) (ht : t.val = 0) : Runs m c t := fun s3 s4 s5 s6 s7 s8 d1 K => by
  unfold bodyAt0
  iintro ⟨H0, H1, HS3, HS4, HS5, HS6, HS7, HS8, HK⟩
  iapply ((kernelRun0_A (F := F) c (grid0.coords t) (ms0_0 t) (hs0_0 t) (ms0_1 t) (hs0_1 t) scM3 (Memref.isWhole_whole _) scM4 (Memref.isWhole_whole _)
      scM5 (Memref.isWhole_whole _) scM6 (Memref.isWhole_whole _) scM7 (Memref.isWhole_whole _) scM8 (Memref.isWhole_whole _)
      ((hcoord0 t).trans ht) ((hcondI t).mpr (by omega))
      (fun h => absurd ((hcond2 t).mp h) (by omega)) (fun h => absurd ((hcond3 t).mp h) (by omega)) (fun h => absurd ((hcond4 t).mp h) (by omega))
      (fun h => absurd ((hcond5 t).mp h) (by omega)) (fun h => absurd ((hcond6 t).mp h) (by omega)) (fun h => absurd ((hcond7 t).mp h) (by omega))
      (fun h => absurd ((hcond8 t).mp h) (by omega)) (fun h => absurd ((hcond9 t).mp h) (by omega)) (iblk m c 0 t) s3 s4 s5 s6 s7 s8).2.2.2.2.2.2 d1 Set.univ K)
  isplitl [H0]; · iexact H0
  isplitl [H1]; · iexact H1
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, HS3, HS4, HS5, ⟨%f6, HS6⟩, ⟨%f7, HS7⟩, HS8⟩
  iapply HK
  isplitl [H0]; · iexact H0
  isplitl [H1]; · iexists _; iexact H1
  isplitl [HS3]; · iapply (owns_any c scM3 _); iexact HS3
  isplitl [HS4]; · iapply (owns_any c scM4 _); iexact HS4
  isplitl [HS5]; · iapply (owns_any c scM5 _); iexact HS5
  isplitl [HS6]; · iapply (owns_any c scM6 _); iexact HS6
  isplitl [HS7]; · iapply (owns_any c scM7 _); iexact HS7
  iapply (owns_any c scM8 _); iexact HS8

abbrev RunPieces (c : Dev nD) (t : Fin cfg0.N) : Type :=
  ∀ s3 s4 s5 s6 s7 s8, RunT (F := F) c (grid0.coords t) (ms0_0 t) (hs0_0 t) (ms0_1 t) (hs0_1 t) scM3 (Memref.isWhole_whole _) scM4 (Memref.isWhole_whole _) scM5 (Memref.isWhole_whole _) scM6 (Memref.isWhole_whole _) scM7 (Memref.isWhole_whole _) scM8 (Memref.isWhole_whole _) (iblk m c 0 t) s3 s4 s5 s6 s7 s8

theorem runs_of_pieces (c : Dev nD) (t : Fin cfg0.N) (r : RunPieces m c t) : Runs m c t := fun s3 s4 s5 s6 s7 s8 d1 K => by
  unfold bodyAt0
  iintro ⟨H0, H1, HS3, HS4, HS5, HS6, HS7, HS8, HK⟩
  iapply ((r s3 s4 s5 s6 s7 s8).2.2.2.2.2.2 d1 Set.univ K)
  isplitl [H0]; · iexact H0
  isplitl [H1]; · iexact H1
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, HS3, HS4, HS5, HS6, HS7, HS8⟩
  iapply HK
  isplitl [H0]; · iexact H0
  isplitl [H1]; · iexists _; iexact H1
  isplitl [HS3]; · iapply (owns_any c scM3 _); iexact HS3
  isplitl [HS4]; · iapply (owns_any c scM4 _); iexact HS4
  isplitl [HS5]; · iapply (owns_any c scM5 _); iexact HS5
  isplitl [HS6]; · iapply (owns_any c scM6 _); iexact HS6
  isplitl [HS7]; · iapply (owns_any c scM7 _); iexact HS7
  iapply (owns_any c scM8 _); iexact HS8

theorem runs_B (c : Dev nD) (t : Fin cfg0.N) (ht : t.val = 1) : Runs m c t :=
  runs_of_pieces m c t
    (kernelRun0_B (F := F) c (grid0.coords t) (ms0_0 t) (hs0_0 t) (ms0_1 t) (hs0_1 t) scM3 (Memref.isWhole_whole _) scM4 (Memref.isWhole_whole _)
      scM5 (Memref.isWhole_whole _) scM6 (Memref.isWhole_whole _) scM7 (Memref.isWhole_whole _) scM8 (Memref.isWhole_whole _)
      ((hcoord0 t).trans ht) (fun h => absurd ((hcondI t).mp h) (by omega))
      ((hcond2 t).mpr (by omega)) (fun h => absurd ((hcond3 t).mp h) (by omega)) (fun h => absurd ((hcond4 t).mp h) (by omega))
      (fun h => absurd ((hcond5 t).mp h) (by omega)) (fun h => absurd ((hcond6 t).mp h) (by omega)) (fun h => absurd ((hcond7 t).mp h) (by omega))
      (fun h => absurd ((hcond8 t).mp h) (by omega)) (fun h => absurd ((hcond9 t).mp h) (by omega)) (iblk m c 0 t))

theorem runs_C (c : Dev nD) (t : Fin cfg0.N) (ht : t.val = 2) : Runs m c t :=
  runs_of_pieces m c t
    (kernelRun0_C (F := F) c (grid0.coords t) (ms0_0 t) (hs0_0 t) (ms0_1 t) (hs0_1 t) scM3 (Memref.isWhole_whole _) scM4 (Memref.isWhole_whole _)
      scM5 (Memref.isWhole_whole _) scM6 (Memref.isWhole_whole _) scM7 (Memref.isWhole_whole _) scM8 (Memref.isWhole_whole _)
      ((hcoord0 t).trans ht) (fun h => absurd ((hcondI t).mp h) (by omega))
      ((hcond2 t).mpr (by omega)) ((hcond3 t).mpr (by omega)) (fun h => absurd ((hcond4 t).mp h) (by omega))
      (fun h => absurd ((hcond5 t).mp h) (by omega)) (fun h => absurd ((hcond6 t).mp h) (by omega)) (fun h => absurd ((hcond7 t).mp h) (by omega))
      (fun h => absurd ((hcond8 t).mp h) (by omega)) (fun h => absurd ((hcond9 t).mp h) (by omega)) (iblk m c 0 t))

theorem runs_D (c : Dev nD) (t : Fin cfg0.N) (ht : t.val = 3) : Runs m c t :=
  runs_of_pieces m c t
    (kernelRun0_D (F := F) c (grid0.coords t) (ms0_0 t) (hs0_0 t) (ms0_1 t) (hs0_1 t) scM3 (Memref.isWhole_whole _) scM4 (Memref.isWhole_whole _)
      scM5 (Memref.isWhole_whole _) scM6 (Memref.isWhole_whole _) scM7 (Memref.isWhole_whole _) scM8 (Memref.isWhole_whole _)
      ((hcoord0 t).trans ht) (fun h => absurd ((hcondI t).mp h) (by omega))
      ((hcond2 t).mpr (by omega)) ((hcond3 t).mpr (by omega)) ((hcond4 t).mpr (by omega))
      (fun h => absurd ((hcond5 t).mp h) (by omega)) (fun h => absurd ((hcond6 t).mp h) (by omega)) (fun h => absurd ((hcond7 t).mp h) (by omega))
      (fun h => absurd ((hcond8 t).mp h) (by omega)) (fun h => absurd ((hcond9 t).mp h) (by omega)) (iblk m c 0 t))

theorem runs_E (c : Dev nD) (t : Fin cfg0.N) (ht : t.val = 4) : Runs m c t :=
  runs_of_pieces m c t
    (kernelRun0_E (F := F) c (grid0.coords t) (ms0_0 t) (hs0_0 t) (ms0_1 t) (hs0_1 t) scM3 (Memref.isWhole_whole _) scM4 (Memref.isWhole_whole _)
      scM5 (Memref.isWhole_whole _) scM6 (Memref.isWhole_whole _) scM7 (Memref.isWhole_whole _) scM8 (Memref.isWhole_whole _)
      ((hcoord0 t).trans ht) (fun h => absurd ((hcondI t).mp h) (by omega))
      ((hcond2 t).mpr (by omega)) ((hcond3 t).mpr (by omega)) ((hcond4 t).mpr (by omega))
      ((hcond5 t).mpr (by omega)) (fun h => absurd ((hcond6 t).mp h) (by omega)) (fun h => absurd ((hcond7 t).mp h) (by omega))
      (fun h => absurd ((hcond8 t).mp h) (by omega)) (fun h => absurd ((hcond9 t).mp h) (by omega)) (iblk m c 0 t))

theorem runs_F (c : Dev nD) (t : Fin cfg0.N) (ht : t.val = 5) : Runs m c t :=
  runs_of_pieces m c t
    (kernelRun0_F (F := F) c (grid0.coords t) (ms0_0 t) (hs0_0 t) (ms0_1 t) (hs0_1 t) scM3 (Memref.isWhole_whole _) scM4 (Memref.isWhole_whole _)
      scM5 (Memref.isWhole_whole _) scM6 (Memref.isWhole_whole _) scM7 (Memref.isWhole_whole _) scM8 (Memref.isWhole_whole _)
      ((hcoord0 t).trans ht) (fun h => absurd ((hcondI t).mp h) (by omega))
      ((hcond2 t).mpr (by omega)) ((hcond3 t).mpr (by omega)) ((hcond4 t).mpr (by omega))
      ((hcond5 t).mpr (by omega)) ((hcond6 t).mpr (by omega)) (fun h => absurd ((hcond7 t).mp h) (by omega))
      (fun h => absurd ((hcond8 t).mp h) (by omega)) (fun h => absurd ((hcond9 t).mp h) (by omega)) (iblk m c 0 t))

theorem runs_G (c : Dev nD) (t : Fin cfg0.N) (ht : t.val = 6) : Runs m c t :=
  runs_of_pieces m c t
    (kernelRun0_G (F := F) c (grid0.coords t) (ms0_0 t) (hs0_0 t) (ms0_1 t) (hs0_1 t) scM3 (Memref.isWhole_whole _) scM4 (Memref.isWhole_whole _)
      scM5 (Memref.isWhole_whole _) scM6 (Memref.isWhole_whole _) scM7 (Memref.isWhole_whole _) scM8 (Memref.isWhole_whole _)
      ((hcoord0 t).trans ht) (fun h => absurd ((hcondI t).mp h) (by omega))
      ((hcond2 t).mpr (by omega)) ((hcond3 t).mpr (by omega)) ((hcond4 t).mpr (by omega))
      ((hcond5 t).mpr (by omega)) ((hcond6 t).mpr (by omega)) ((hcond7 t).mpr (by omega))
      (fun h => absurd ((hcond8 t).mp h) (by omega)) (fun h => absurd ((hcond9 t).mp h) (by omega)) (iblk m c 0 t))

set_option maxHeartbeats 4000000 in

theorem runs_H (c : Dev nD) (t : Fin cfg0.N) (ht : t.val = 7) : Runs m c t := fun s3 s4 s5 s6 s7 s8 d1 K => by
  unfold bodyAt0
  iintro ⟨H0, H1, HS3, HS4, HS5, HS6, HS7, HS8, HK⟩
  iapply ((kernelRun0_H (F := F) c (grid0.coords t) (ms0_0 t) (hs0_0 t) (ms0_1 t) (hs0_1 t) scM3 (Memref.isWhole_whole _) scM4 (Memref.isWhole_whole _)
      scM5 (Memref.isWhole_whole _) scM6 (Memref.isWhole_whole _) scM7 (Memref.isWhole_whole _) scM8 (Memref.isWhole_whole _)
      ((hcoord0 t).trans ht) (fun h => absurd ((hcondI t).mp h) (by omega))
      ((hcond2 t).mpr (by omega)) ((hcond3 t).mpr (by omega)) ((hcond4 t).mpr (by omega))
      ((hcond5 t).mpr (by omega)) ((hcond6 t).mpr (by omega)) ((hcond7 t).mpr (by omega))
      ((hcond8 t).mpr (by omega)) ((hcond9 t).mpr (by omega)) (iblk m c 0 t) s3 s4 s5 s6 s7 s8).2.2.2.2.2.2.2 Set.univ K)
  isplitl [H0]; · iexact H0
  isplitl [H1]; · iexists _; iexact H1
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, ⟨%f2, H1⟩, HS3, HS4, HS5, HS6, HS7, HS8⟩
  iapply HK
  isplitl [H0]; · iexact H0
  isplitl [H1]; · iapply (owns_any c (ms0_1 t) _); iexact H1
  isplitl [HS3]; · iapply (owns_any c scM3 _); iexact HS3
  isplitl [HS4]; · iapply (owns_any c scM4 _); iexact HS4
  isplitl [HS5]; · iapply (owns_any c scM5 _); iexact HS5
  isplitl [HS6]; · iapply (owns_any c scM6 _); iexact HS6
  isplitl [HS7]; · iapply (owns_any c scM7 _); iexact HS7
  iapply (owns_any c scM8 _); iexact HS8

theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h0 : t.val = 0; · exact sound_of_runs m c t (runs_A m c t h0)
  by_cases h1 : t.val = 1; · exact sound_of_runs m c t (runs_B m c t h1)
  by_cases h2 : t.val = 2; · exact sound_of_runs m c t (runs_C m c t h2)
  by_cases h3 : t.val = 3; · exact sound_of_runs m c t (runs_D m c t h3)
  by_cases h4 : t.val = 4; · exact sound_of_runs m c t (runs_E m c t h4)
  by_cases h5 : t.val = 5; · exact sound_of_runs m c t (runs_F m c t h5)
  by_cases h6 : t.val = 6; · exact sound_of_runs m c t (runs_G m c t h6)
  exact sound_of_runs m c t (runs_H m c t (by omega))

theorem body_obligation (c : Dev nD) : BodyObligation (dats (F := F) m 0 c) (defs₀ (F := F)) Variants.none () Set.univ forgets0 := fun t => by
  rw [bigSep_W0, bigSep_W0]
  exact sound_body m c t

def T0 : Finset (Ref sig .tc) := {main_v1}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl
  intro b hb
  simp only [StableHlo.reshape_writes, Finset.mem_singleton] at hb
  cases Proc.devRef_injective _ hb
  exact Finset.mem_singleton_self _

set_option backward.isDefEq.respectTransparency.types false in

theorem run_main : θ_run defs (onTc (τ := τ) (main (F := F))) (s₀ m ρ)
    (Pipeline.RDat.FramePostR (cfgs 0) (fun c => (dats m 0 c).toRForget forgets0) T0 (fun c b => V0 m c (Proc.devRef .tc b))) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (fun c b => V0 m c (Proc.devRef .tc b)))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (Pipeline.RDat.FramePostR.arr_in h c 0 rfl).trans ((hA c 0).trans (V_main_arg0 m c))) h

/-- Every weakly fair execution of the program ends, faults nowhere, and leaves the input array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of_rel m ρ (fun c => (dats m 0 c).toRForget forgets0) (A_eq m) (run_main m ρ)

end Cert.Kernel.Gen

end
-- ==== Proof.KFacts.lean ====
import proofs.«141847_g74552042324289_cont_9to1_m_1244_12_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condI (i : grid0.Coords) : Prop := (Scalar.cmpi .ne (Scalar.extui (Scalar.cmpi .eq (BitVec.ofNat 32 (i 0).val) 0#32)) 0#32) = 1#1

theorem hcondI : ∀ t : Fin cfg0.N, condI (grid0.coords t) ↔ t.val = 0 :=
  (by decide +kernel : ∀ t : Fin grid0.N, condI (grid0.coords t) ↔ t.val = 0)
theorem hcond2 : ∀ t : Fin cfg0.N, k0_cond2 (grid0.coords t) = 1#1 ↔ 1 ≤ t.val :=
  (by decide +kernel : ∀ t : Fin grid0.N, k0_cond2 (grid0.coords t) = 1#1 ↔ 1 ≤ t.val)
theorem hcond3 : ∀ t : Fin cfg0.N, k0_cond3 (grid0.coords t) = 1#1 ↔ 2 ≤ t.val :=
  (by decide +kernel : ∀ t : Fin grid0.N, k0_cond3 (grid0.coords t) = 1#1 ↔ 2 ≤ t.val)
theorem hcond4 : ∀ t : Fin cfg0.N, k0_cond4 (grid0.coords t) = 1#1 ↔ 3 ≤ t.val :=
  (by decide +kernel : ∀ t : Fin grid0.N, k0_cond4 (grid0.coords t) = 1#1 ↔ 3 ≤ t.val)
theorem hcond5 : ∀ t : Fin cfg0.N, k0_cond5 (grid0.coords t) = 1#1 ↔ 4 ≤ t.val :=
  (by decide +kernel : ∀ t : Fin grid0.N, k0_cond5 (grid0.coords t) = 1#1 ↔ 4 ≤ t.val)
theorem hcond6 : ∀ t : Fin cfg0.N, k0_cond6 (grid0.coords t) = 1#1 ↔ 5 ≤ t.val :=
  (by decide +kernel : ∀ t : Fin grid0.N, k0_cond6 (grid0.coords t) = 1#1 ↔ 5 ≤ t.val)
theorem hcond7 : ∀ t : Fin cfg0.N, k0_cond7 (grid0.coords t) = 1#1 ↔ 6 ≤ t.val :=
  (by decide +kernel : ∀ t : Fin grid0.N, k0_cond7 (grid0.coords t) = 1#1 ↔ 6 ≤ t.val)
theorem hcond8 : ∀ t : Fin cfg0.N, k0_cond8 (grid0.coords t) = 1#1 ↔ 7 ≤ t.val :=
  (by decide +kernel : ∀ t : Fin grid0.N, k0_cond8 (grid0.coords t) = 1#1 ↔ 7 ≤ t.val)
theorem hcond9 : ∀ t : Fin cfg0.N, k0_cond9 (grid0.coords t) = 1#1 ↔ t.val = 7 :=
  (by decide +kernel : ∀ t : Fin grid0.N, k0_cond9 (grid0.coords t) = 1#1 ↔ t.val = 7)

theorem hcoord0 : ∀ t : Fin cfg0.N, ((grid0.coords t) 0).val = t.val :=
  (by decide +kernel : ∀ t : Fin grid0.N, ((grid0.coords t) 0).val = t.val)

theorem liveAt0_0 : ∀ t : Fin cfg0.N, cfg0.idle 0 (grid0.coords t) = false := by decide +kernel

theorem idleAt0_1 : ∀ t : Fin cfg0.N, t.val ≠ 7 → cfg0.idle 1 (grid0.coords t) = true := by decide +kernel

theorem noFlush0_1 : ∀ t : Fin cfg0.N, t.val ≠ 7 → (cfg0.win 1).flush t = false := by decide +kernel

theorem liveAt0_1 : ∀ t : Fin cfg0.N, t.val = 7 → cfg0.idle 1 (grid0.coords t) = false := by decide +kernel

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)

abbrev scM3 : Memref sig .tc .vmem S4096x1024 .bf16 := Memref.whole cc0_scratch0
abbrev scM4 : Memref sig .tc .vmem S4096x1 .f32 := Memref.whole cc0_scratch1
abbrev scM5 : Memref sig .tc .vmem S8x1x512 .f32 := Memref.whole cc0_scratch2
abbrev scM6 : Memref sig .tc .vmem S4096x128 .f32 := Memref.whole cc0_scratch3
abbrev scM7 : Memref sig .tc .vmem S8x1x512 .f32 := Memref.whole cc0_scratch4
abbrev scM8 : Memref sig .tc .vmem S8x512 .f32 := Memref.whole cc0_scratch5

theorem PhiA0_eq (c : Dev nD) :
    (Pipeline.ΦA spec0 c : sProp 𝕄)
      = iprop(iprop((∃ d, owns (c : Thread nD τ) scM3 fullShare d) ∗ (∃ d, owns (c : Thread nD τ) scM4 fullShare d) ∗ (∃ d, owns (c : Thread nD τ) scM5 fullShare d)
          ∗ (∃ d, owns (c : Thread nD τ) scM6 fullShare d) ∗ (∃ d, owns (c : Thread nD τ) scM7 fullShare d) ∗ (∃ d, owns (c : Thread nD τ) scM8 fullShare d)) ∗ (∃ r, prngReg c r)) := by
  unfold Pipeline.ΦA; rw [scopedRest0_eq]; simp only [scM3, scM4, scM5, scM6, scM7, scM8, owns_whole]; try rfl

end Cert.KernelIdeal.Gen

end
-- ==== Proof.Spec.lean ====
import Idealize.ShloMosaic.PureOps.Ideal
import Idealize.ShloMosaic.Lib.ValueIdx

noncomputable section

namespace KoLeo

open Idealize.ShloMosaic Idealize.ShloMosaic.ValueIdx
open scoped BigOperators

abbrev XT : Type := (⟨2, ![4096, 1024]⟩ : Shape).Idx → EReal

def m2 : EReal := Ideal.ofBits .f32 0xC0000000#32

def two : EReal := Ideal.ofBits .f32 0x40000000#32

def eps : EReal := Ideal.ofBits .f32 0x322BCC77#32

def negInvN : EReal := Ideal.ofBits .f32 0xB9800000#32

def nF : EReal := Ideal.ofBits .f32 0x45800000#32

def pinf : EReal := Ideal.ofBits .f32 0x7F800000#32

def z0 : EReal := Ideal.ofBits .f32 0x00000000#32

/-- The sum of the squares of row `r`. -/
def sq (x : XT) (r : Fin 4096) : EReal := ∑ k : Fin 1024, x (ix2 r k) * x (ix2 r k)

/-- Row `r` against `-2` times row `c`: entry `(r, c)` of a tile. -/
def gp (x : XT) (r c : Fin 4096) : EReal := ∑ k : Fin 1024, x (ix2 r k) * (m2 * x (ix2 c k))

def gram (x : XT) (r c : Fin 4096) : EReal := ∑ k : Fin 1024, x (ix2 r k) * x (ix2 c k)

/-- What a row's minimum runs over: column `c`'s square sum plus the tile entry, `+∞` on the diagonal. -/
def rowE (x : XT) (r c : Fin 4096) : EReal := if r = c then pinf else sq x c + gp x r c

/-- What a column's minimum runs over: row `r`'s square sum plus the tile entry. -/
def colE (x : XT) (r c : Fin 4096) : EReal := sq x r + gp x r c

/-- Row `p` over the columns of the 256-bands up to its own. -/
def rowMin (x : XT) (p : Fin 4096) : EReal := ⨅ c : {c : Fin 4096 // c.val / 256 ≤ p.val / 256}, rowE x p c.1

/-- Column `p` over the rows of the later 256-bands. -/
def colMin (x : XT) (p : Fin 4096) : EReal := ⨅ r : {r : Fin 4096 // p.val / 256 < r.val / 256}, colE x r.1 p

/-- Row `p`'s smallest squared distance as the kernel forms it: both sides completed by the row's own square sum, clamped at zero. -/
def kerMd2 (x : XT) (p : Fin 4096) : EReal := max (min (rowMin x p + sq x p) (colMin x p + sq x p)) z0

/-- The kernel's result. -/
def kerLoss (x : XT) : EReal := (∑ p : Fin 4096, Ideal.log (Ideal.sqrt (kerMd2 x p) + eps)) * negInvN

/-- The reference's clamped squared distance, the diagonal masked. -/
def refD2 (x : XT) (p c : Fin 4096) : EReal := if p = c then pinf else max ((sq x p + sq x c) - two * gram x p c) z0

def refMin (x : XT) (p : Fin 4096) : EReal := ⨅ c : Fin 4096, Ideal.sqrt (refD2 x p c)

/-- The reference's result. -/
def refLoss (x : XT) : EReal := -(Ideal.div (z0 + ∑ p : Fin 4096, Ideal.log (refMin x p + eps)) nF)

end KoLeo

end
-- ==== Proof.InvDefs.lean ====
import proofs.«141847_g74552042324289_cont_9to1_m_1244_12_alg».proof.KernelIdeal
import proofs.«141847_g74552042324289_cont_9to1_m_1244_12_alg».proof.Proof.Spec
import Idealize.ShloMosaic.Lib.ValueIdx

noncomputable section

namespace Cert.KernelIdeal.Val

open Idealize.ShloMosaic Idealize.ShloMosaic.ValueIdx Cert.KernelIdeal

def rowOf (b : Fin 8) (j : Fin 512) : Fin 4096 := ⟨512 * b.val + j.val, by have := b.isLt; have := j.isLt; omega⟩

/-- Row `r`'s minimum over the columns `≡ l mod 128` in `[lo, hi)`. -/
def rowPart (x : KoLeo.XT) (r : Fin 4096) (l : Fin 128) (lo hi : ℕ) : EReal :=
  ⨅ c : {c : Fin 4096 // c.val % 128 = l.val ∧ lo ≤ c.val ∧ c.val < hi}, KoLeo.rowE x r c.1

/-- Column `c`'s minimum over the rows in `[lo, hi)`. -/
def colPart (x : KoLeo.XT) (c : Fin 4096) (lo hi : ℕ) : EReal :=
  ⨅ r : {r : Fin 4096 // lo ≤ r.val ∧ r.val < hi}, KoLeo.colE x r.1 c

/-- Where the 256-band of `p` ends. -/
def bandEnd (p : Fin 4096) : ℕ := 256 * (p.val / 256 + 1)

/-- What the five scratch arrays hold once `t` blocks of 512 rows have been met. -/
structure Inv (x : KoLeo.XT) (t : ℕ) (s3 : Vec Ideal S4096x1024 .bf16) (s4 : Vec Ideal S4096x1 .f32) (s5 : Vec Ideal S8x1x512 .f32)
    (s6 : Vec Ideal S4096x128 .f32) (s7 : Vec Ideal S8x1x512 .f32) : Prop where
  scaled : ∀ (r : Fin 4096) (k : Fin 1024), r.val < 512 * t → s3 (ix2 r k) = KoLeo.m2 * x (ix2 r k)
  normCol : ∀ (r : Fin 4096), r.val < 512 * t → s4 (ix2 r (0 : Fin 1)) = KoLeo.sq x r
  normRow : ∀ (b : Fin 8) (j : Fin 512), b.val < t → s5 (ix3 b (0 : Fin 1) j) = KoLeo.sq x (rowOf b j)
  rowAcc : ∀ (r : Fin 4096) (l : Fin 128), s6 (ix2 r l) = if r.val < 512 * t then rowPart x r l 0 (bandEnd r) else KoLeo.pinf
  colAcc : ∀ (b : Fin 8) (j : Fin 512), s7 (ix3 b (0 : Fin 1) j) = colPart x (rowOf b j) (bandEnd (rowOf b j)) (512 * t)

def IsBlock (x : KoLeo.XT) (g : Fin 8) (x0 : Vec Ideal S512x1024 .f32) : Prop :=
  ∀ (a : Fin 512) (k : Fin 1024), x0 (ix2 a k) = x (ix2 (rowOf g a) k)

def subRow (g : Fin 8) (s : Fin 2) (a : Fin 256) : Fin 4096 :=
  ⟨512 * g.val + 256 * s.val + a.val, by have := g.isLt; have := s.isLt; have := a.isLt; omega⟩

def IsScaled (x : KoLeo.XT) (k : Fin 8) (v : Vec Ideal S512x1024 .bf16) : Prop :=
  ∀ (j : Fin 512) (q : Fin 1024), v (ix2 j q) = KoLeo.m2 * x (ix2 (rowOf k j) q)

def IsLhs (x : KoLeo.XT) (g : Fin 8) (v : FVec Ideal S512x1024 .bf16) : Prop :=
  ∀ (a : Fin 512) (q : Fin 1024), v (ix2 a q) = x (ix2 (rowOf g a) q)

def IsNormRow (x : KoLeo.XT) (k : Fin 8) (v : Vec Ideal S1x1x512 .f32) : Prop :=
  ∀ j : Fin 512, v (ix3 (0 : Fin 1) (0 : Fin 1) j) = KoLeo.sq x (rowOf k j)

def IsNormCol (x : KoLeo.XT) (g : Fin 8) (v : FVec Ideal S512x1 .f32) : Prop :=
  ∀ a : Fin 512, v (ix2 a (0 : Fin 1)) = KoLeo.sq x (rowOf g a)

def IsNormFlat (x : KoLeo.XT) (g : Fin 8) (v : FVec Ideal S1x512 .f32) : Prop :=
  ∀ a : Fin 512, v (ix2 (0 : Fin 1) a) = KoLeo.sq x (rowOf g a)

end Cert.KernelIdeal.Val

end
-- ==== Proof.KDat.lean ====
import proofs.«141847_g74552042324289_cont_9to1_m_1244_12_alg».proof.Proof.KFacts
import proofs.«141847_g74552042324289_cont_9to1_m_1244_12_alg».proof.Proof.InvDefs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Val

local notation "𝕄" => MT nD τ sig Unit (Elt Ideal) ℕ (UR sig nD τ) ℕ

variable (m : (ℓ : Loc nD τ sig) → Buf (Elt Ideal) ℓ) (ρ : Dev nD → PrngReg)

def xin (c : Dev nD) : KoLeo.XT := V m c main_arg0

def outV (c : Dev nD) : Vec Ideal S1x1 .f32 := fun _ => KoLeo.kerLoss (xin m c)

/-- Between points the scratch arrays satisfy the invariant for the blocks met so far. -/
def PhiS (c : Dev nD) : ℕ → sProp 𝕄
  | 0 => Pipeline.ΦA spec0 c
  | n + 1 => iprop(iprop(∃ (s3 : Vec Ideal S4096x1024 .bf16) (s4 : Vec Ideal S4096x1 .f32) (s5 : Vec Ideal S8x1x512 .f32)
        (s6 : Vec Ideal S4096x128 .f32) (s7 : Vec Ideal S8x1x512 .f32) (s8 : Vec Ideal S8x512 .f32),
        ⌜Inv (xin m c) (n + 1) s3 s4 s5 s6 s7⌝
          ∗ owns (c : Thread nD τ) scM3 fullShare s3 ∗ owns (c : Thread nD τ) scM4 fullShare s4 ∗ owns (c : Thread nD τ) scM5 fullShare s5
          ∗ owns (c : Thread nD τ) scM6 fullShare s6 ∗ owns (c : Thread nD τ) scM7 fullShare s7 ∗ owns (c : Thread nD τ) scM8 fullShare s8)
      ∗ (∃ r, prngReg c r))

theorem PhiS_zero (c : Dev nD) : PhiS m c 0 = Pipeline.ΦA spec0 c := rfl

theorem PhiS_succ (c : Dev nD) (n : ℕ) :
    PhiS m c (n + 1) = iprop(iprop(∃ (s3 : Vec Ideal S4096x1024 .bf16) (s4 : Vec Ideal S4096x1 .f32) (s5 : Vec Ideal S8x1x512 .f32)
        (s6 : Vec Ideal S4096x128 .f32) (s7 : Vec Ideal S8x1x512 .f32) (s8 : Vec Ideal S8x512 .f32),
        ⌜Inv (xin m c) (n + 1) s3 s4 s5 s6 s7⌝
          ∗ owns (c : Thread nD τ) scM3 fullShare s3 ∗ owns (c : Thread nD τ) scM4 fullShare s4 ∗ owns (c : Thread nD τ) scM5 fullShare s5
          ∗ owns (c : Thread nD τ) scM6 fullShare s6 ∗ owns (c : Thread nD τ) scM7 fullShare s7 ∗ owns (c : Thread nD τ) scM8 fullShare s8)
      ∗ (∃ r, prngReg c r)) := rfl

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => outV m c
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = outV m c := by dsimp only [dats]

theorem before0_0 (c : Dev nD) (t : Fin cfg0.N) (d) : (dats m 0 c).before 0 t d = iblk m c 0 t :=
  before0_0_of m (dats m 0 c) (A_eq m c 0) (after0_0 m c) t d

end Cert.KernelIdeal.Gen

end
-- ==== Proof.Run.lean ====
import proofs.«141847_g74552042324289_cont_9to1_m_1244_12_alg».proof.Proof.KFacts
import proofs.«141847_g74552042324289_cont_9to1_m_1244_12_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S512x1024 .f32) (harg1 : arg1.IsWhole) (arg2 : Memref sig .tc .vmem S1x1 .f32) (harg2 : arg2.IsWhole) (arg3 : Memref sig .tc .vmem S4096x1024 .bf16) (harg3 : arg3.IsWhole) (arg4 : Memref sig .tc .vmem S4096x1 .f32) (harg4 : arg4.IsWhole) (arg5 : Memref sig .tc .vmem S8x1x512 .f32) (harg5 : arg5.IsWhole) (arg6 : Memref sig .tc .vmem S4096x128 .f32) (harg6 : arg6.IsWhole) (arg7 : Memref sig .tc .vmem S8x1x512 .f32) (harg7 : arg7.IsWhole) (arg8 : Memref sig .tc .vmem S8x512 .f32) (harg8 : arg8.IsWhole)

/-- What the body's run on whole memrefs gives at a point between the first and the last: the input block and the result window's buffer as they were, each scratch operand at the pieces the body stored (the latest first) over what it held. -/
abbrev RunT (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) : Type :=
    Σ' (L3 : List (View.Piece (Elt F) S4096x1024 .bf16)) (L4 : List (View.Piece (Elt F) S4096x1 .f32)) (L5 : List (View.Piece (Elt F) S8x1x512 .f32)) (L6 : List (View.Piece (Elt F) S4096x128 .f32)) (L7 : List (View.Piece (Elt F) S8x1x512 .f32)), { L8 : List (View.Piece (Elt F) S8x512 .f32) //
      ∀ (xi2 : Vec F S1x1 .f32) (E : Set ℕ) (K : PUnit → sProp 𝕄),
        iprop(owns (c : Thread nD τ) arg1 fullShare x0 ∗ owns (c : Thread nD τ) arg2 fullShare xi2
            ∗ owns (c : Thread nD τ) arg3 fullShare xs3 ∗ owns (c : Thread nD τ) arg4 fullShare xs4 ∗ owns (c : Thread nD τ) arg5 fullShare xs5
            ∗ owns (c : Thread nD τ) arg6 fullShare xs6 ∗ owns (c : Thread nD τ) arg7 fullShare xs7 ∗ owns (c : Thread nD τ) arg8 fullShare xs8
            ∗ (iprop(owns (c : Thread nD τ) arg1 fullShare x0 ∗ owns (c : Thread nD τ) arg2 fullShare xi2
                ∗ (arg3.view.loc (c : Thread nD τ) ↦[arg3.view.set]{fullShare} arg3.view.writes (Elt F) (harg3.unread xs3) L3)
                ∗ (arg4.view.loc (c : Thread nD τ) ↦[arg4.view.set]{fullShare} arg4.view.writes (Elt F) (harg4.unread xs4) L4)
                ∗ (arg5.view.loc (c : Thread nD τ) ↦[arg5.view.set]{fullShare} arg5.view.writes (Elt F) (harg5.unread xs5) L5)
                ∗ (arg6.view.loc (c : Thread nD τ) ↦[arg6.view.set]{fullShare} arg6.view.writes (Elt F) (harg6.unread xs6) L6)
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)) -∗ K ⟨⟩))
          ⊢ wp frame (wpE (defs₀ (F := F)) Variants.none c none) E (cc0__koleo_kernel i arg1 harg1 arg2 harg2 arg3 harg3 arg4 harg4 arg5 harg5 arg6 harg6 arg7 harg7 arg8 harg8) K }

set_option maxHeartbeats 16000000 in
/-- Point 0: two scratch operands are loaded before the fills cover them, so their pieces lie over contents nothing names. -/
noncomputable def kernelRun0_A (hg : (i 0).val = 0) (hI : condI i) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    Σ' (L3 : List (View.Piece (Elt F) S4096x1024 .bf16)) (L4 : List (View.Piece (Elt F) S4096x1 .f32)) (L5 : List (View.Piece (Elt F) S8x1x512 .f32)) (L6 : List (View.Piece (Elt F) S4096x128 .f32)) (L7 : List (View.Piece (Elt F) S8x1x512 .f32)), { L8 : List (View.Piece (Elt F) S8x512 .f32) //
      ∀ (xi2 : Vec F S1x1 .f32) (E : Set ℕ) (K : PUnit → sProp 𝕄),
        iprop(owns (c : Thread nD τ) arg1 fullShare x0 ∗ owns (c : Thread nD τ) arg2 fullShare xi2
            ∗ owns (c : Thread nD τ) arg3 fullShare xs3 ∗ owns (c : Thread nD τ) arg4 fullShare xs4 ∗ owns (c : Thread nD τ) arg5 fullShare xs5
            ∗ owns (c : Thread nD τ) arg6 fullShare xs6 ∗ owns (c : Thread nD τ) arg7 fullShare xs7 ∗ owns (c : Thread nD τ) arg8 fullShare xs8
            ∗ (iprop(owns (c : Thread nD τ) arg1 fullShare x0 ∗ owns (c : Thread nD τ) arg2 fullShare xi2
                ∗ (arg3.view.loc (c : Thread nD τ) ↦[arg3.view.set]{fullShare} arg3.view.writes (Elt F) (harg3.unread xs3) L3)
                ∗ (arg4.view.loc (c : Thread nD τ) ↦[arg4.view.set]{fullShare} arg4.view.writes (Elt F) (harg4.unread xs4) L4)
                ∗ (arg5.view.loc (c : Thread nD τ) ↦[arg5.view.set]{fullShare} arg5.view.writes (Elt F) (harg5.unread xs5) L5)
                ∗ (∃ f6, arg6.view.loc (c : Thread nD τ) ↦[arg6.view.set]{fullShare} arg6.view.writes (Elt F) f6 L6)
                ∗ (∃ f7, arg7.view.loc (c : Thread nD τ) ↦[arg7.view.set]{fullShare} arg7.view.writes (Elt F) f7 L7)
                ∗ (arg8.view.loc (c : Thread nD τ) ↦[arg8.view.set]{fullShare} arg8.view.writes (Elt F) (harg8.unread xs8) L8)) -∗ K ⟨⟩))
          ⊢ wp frame (wpE (defs₀ (F := F)) Variants.none c none) E (cc0__koleo_kernel i arg1 harg1 arg2 harg2 arg3 harg3 arg4 harg4 arg5 harg5 arg6 harg6 arg7 harg7 arg8 harg8) K } := by
  refine ⟨?_, ?_, ?_, ?_, ?_, [], fun xi2 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    isplitl [H6]; · iexists _; iexact H6
    isplitl [H7]; · iexists _; iexact H7
    iexact H8

set_option maxHeartbeats 16000000 in
noncomputable def kernelRun0_B (hg : (i 0).val = 1) (hI : ¬ condI i) (h2 : k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    RunT c i arg1 harg1 arg2 harg2 arg3 harg3 arg4 harg4 arg5 harg5 arg6 harg6 arg7 harg7 arg8 harg8 x0 xs3 xs4 xs5 xs6 xs7 xs8 := by
  refine ⟨?_, ?_, ?_, ?_, ?_, [], fun xi2 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    isplitl [H6]; · iexact H6
    isplitl [H7]; · iexact H7
    iexact H8

set_option maxHeartbeats 16000000 in
noncomputable def kernelRun0_C (hg : (i 0).val = 2) (hI : ¬ condI i) (h2 : k0_cond2 i = 1#1) (h3 : k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    RunT c i arg1 harg1 arg2 harg2 arg3 harg3 arg4 harg4 arg5 harg5 arg6 harg6 arg7 harg7 arg8 harg8 x0 xs3 xs4 xs5 xs6 xs7 xs8 := by
  refine ⟨?_, ?_, ?_, ?_, ?_, [], fun xi2 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    isplitl [H6]; · iexact H6
    isplitl [H7]; · iexact H7
    iexact H8

set_option maxHeartbeats 16000000 in
noncomputable def kernelRun0_D (hg : (i 0).val = 3) (hI : ¬ condI i) (h2 : k0_cond2 i = 1#1) (h3 : k0_cond3 i = 1#1) (h4 : k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    RunT c i arg1 harg1 arg2 harg2 arg3 harg3 arg4 harg4 arg5 harg5 arg6 harg6 arg7 harg7 arg8 harg8 x0 xs3 xs4 xs5 xs6 xs7 xs8 := by
  refine ⟨?_, ?_, ?_, ?_, ?_, [], fun xi2 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    isplitl [H6]; · iexact H6
    isplitl [H7]; · iexact H7
    iexact H8

set_option maxHeartbeats 16000000 in
noncomputable def kernelRun0_E (hg : (i 0).val = 4) (hI : ¬ condI i) (h2 : k0_cond2 i = 1#1) (h3 : k0_cond3 i = 1#1) (h4 : k0_cond4 i = 1#1) (h5 : k0_cond5 i = 1#1) (h6 : ¬ k0_cond6 i = 1#1) (h7 : ¬ k0_cond7 i = 1#1) (h8 : ¬ k0_cond8 i = 1#1) (h9 : ¬ k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    RunT c i arg1 harg1 arg2 harg2 arg3 harg3 arg4 harg4 arg5 harg5 arg6 harg6 arg7 harg7 arg8 harg8 x0 xs3 xs4 xs5 xs6 xs7 xs8 := by
  refine ⟨?_, ?_, ?_, ?_, ?_, [], fun xi2 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    isplitl [H6]; · iexact H6
    isplitl [H7]; · iexact H7
    iexact H8

set_option maxHeartbeats 16000000 in
noncomputable def kernelRun0_F (hg : (i 0).val = 5) (hI : ¬ condI i) (h2 : k0_cond2 i = 1#1) (h3 : k0_cond3 i = 1#1) (h4 : k0_cond4 i = 1#1) (h5 : k0_cond5 i = 1#1) (h6 : k0_cond6 i = 1#1) (h7 : ¬ k0_cond7 i = 1#1) (h8 : ¬ k0_cond8 i = 1#1) (h9 : ¬ k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    RunT c i arg1 harg1 arg2 harg2 arg3 harg3 arg4 harg4 arg5 harg5 arg6 harg6 arg7 harg7 arg8 harg8 x0 xs3 xs4 xs5 xs6 xs7 xs8 := by
  refine ⟨?_, ?_, ?_, ?_, ?_, [], fun xi2 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    isplitl [H6]; · iexact H6
    isplitl [H7]; · iexact H7
    iexact H8

set_option maxHeartbeats 16000000 in
noncomputable def kernelRun0_G (hg : (i 0).val = 6) (hI : ¬ condI i) (h2 : k0_cond2 i = 1#1) (h3 : k0_cond3 i = 1#1) (h4 : k0_cond4 i = 1#1) (h5 : k0_cond5 i = 1#1) (h6 : k0_cond6 i = 1#1) (h7 : k0_cond7 i = 1#1) (h8 : ¬ k0_cond8 i = 1#1) (h9 : ¬ k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    RunT c i arg1 harg1 arg2 harg2 arg3 harg3 arg4 harg4 arg5 harg5 arg6 harg6 arg7 harg7 arg8 harg8 x0 xs3 xs4 xs5 xs6 xs7 xs8 := by
  refine ⟨?_, ?_, ?_, ?_, ?_, [], fun xi2 E K => ?run⟩
  case run =>
    simp only [cc0__koleo_kernel_eq_skeleton]; unfold cc0__koleo_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexact H3
    isplitl [H4]; · iexact H4
    isplitl [H5]; · iexact H5
    isplitl [H6]; · iexact H6
    isplitl [H7]; · iexact H7
    iexact H8

set_option maxHeartbeats 16000000 in
/-- Point 7: the closing stage also stores the result window's cell. -/
noncomputable def kernelRun0_H (hg : (i 0).val = 7) (hI : ¬ condI i) (h2 : k0_cond2 i = 1#1) (h3 : k0_cond3 i = 1#1) (h4 : k0_cond4 i = 1#1) (h5 : k0_cond5 i = 1#1) (h6 : k0_cond6 i = 1#1) (h7 : k0_cond7 i = 1#1) (h8 : k0_cond8 i = 1#1) (h9 : k0_cond9 i = 1#1)
    (x0 : Vec F S512x1024 .f32) (xs3 : Vec F S4096x1024 .bf16) (xs4 : Vec F S4096x1 .f32) (xs5 : Vec F S8x1x512 .f32) (xs6 : Vec F S4096x128 .f32) (xs7 : Vec F S8x1x512 .f32) (xs8 : Vec F S8x512 .f32) :
    Σ' (L2 : List (View.Piece (Elt F) S1x1 .f32)) (L3 : List (View.Piece (Elt F) S4096x1024 .bf16)) (L4 : List (View.Piece (Elt F) S4096x1 .f32)) (L5 : List (View.Piece (Elt F) S8x1x512 .f32)) (L6 : List (View.Piece (Elt F) S4096x128 .f32)) (L7 : List (View.Piece (Elt F) S8x1x512 .f32)), { L8 : List (View.Piece (Elt F) S8x512 .f32) //
      ∀ (E : Set ℕ) (K : PUnit → sProp 𝕄),
        iprop(owns (c : Thread nD τ) arg1 fullShare x0 ∗ (∃ d, owns (c : Thread nD τ) arg2 fullShare d)
            ∗ owns (c : Thread nD τ) arg3 fullShare xs3 ∗ owns (c : Thread nD τ) arg4 fullShare xs4 ∗ owns (c : Thread nD τ) arg5 fullShare xs5
            ∗ owns (c : Thread nD τ) arg6 fullShare xs6 ∗ owns (c : Thread nD τ) arg7 fullShare xs7 ∗ owns (c : Thread nD τ) arg8 fullShare xs8
            ∗ (iprop(owns (c : Thread nD τ) arg1 fullShare x0 ∗ (∃ f2, arg2.view.loc (c : Thread nD τ) ↦[arg2.view.set]{fullShare} arg2.view.writes (Elt F) f2 L2)
                ∗ (arg3.view.loc (c : Thread nD τ) ↦[arg3.view.set]{fullShare} arg3.view.writes (Elt F) (harg3.unread xs3) L3)
                ∗ (arg4.view.loc (c : Thread nD τ) ↦[arg4.view.set]{fullShare} arg4.view.writes (Elt F) (harg4.unread xs4) L4)
                ∗ (arg5.view.loc (c : Thread nD τ) ↦[arg5.view.set]{fullShare} arg5.view.writes (Elt F) (harg5.unread xs5) L5)
                ∗ (arg6.view.loc (c : Thread nD τ) ↦[arg6.view.set]{fullShare} arg6.view.writes (Elt F) (harg6.unread xs6) L6)
                ∗ (arg7.view.loc (c : Thread nD τ) ↦[arg7.view.set]{fullShare} arg7.view.writes (Elt F) (harg7.unread xs7) L7)
                ∗ (arg8.view.loc (c : Thread nD τ) ↦[arg8.view.set]{fullShare} arg8.view.writes (Elt F) (harg8.unread xs8) L8)) -∗ K ⟨⟩))
          ⊢ wp frame (wpE (defs₀ (F := F)) Variants.none c none) E (cc0__koleo_kernel i arg1 harg1 arg2 harg2 arg3 harg3 arg4 harg4 arg5 harg5 arg6 harg6 arg7 harg7 arg8 harg8) K } := by
  refine ⟨?_, ?_, ?_, ?_, ?_, ?_, ?_, fun E K => ?run⟩
  case run =>
    simp only [cc0__koleo_kernel_eq_skeleton]; unfold cc0__koleo_kernel_skel
    unfold owns
    iintro ⟨⟨%f1, %hf1, H1⟩, ⟨%d2, %f2, -, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hI | sl_exact h2 | sl_exact h3 | sl_exact h4 | sl_exact h5 | sl_exact h6 | sl_exact h7 | sl_exact h8 | sl_exact h9)
    sl_step
    iapply Hk
    isplitl [H1]
    · iexists _; isplitr; · ipureintro; exact harg1.read_unread _
      iexact H1
    isplitl [H2]; · iexists _; iexact H2
    isplitl [H3]; · iexact H3
    isplitl [H4]; · iexact H4
    isplitl [H5]; · iexact H5
    isplitl [H6]; · iexact H6
    isplitl [H7]; · iexact H7
    iexact H8

end Cert.KernelIdeal.Gen

end
-- ==== Proof.WritesAt.lean ====
import Idealize.ShloMosaic.Lib.Writes
import Idealize.ShloMosaic.Lib.WritesUnit
import Idealize.ShloMosaic.Lib.Exec.Geometry
import Idealize.ShloMosaic.Lib.Pipeline.Frame
import Idealize.ShloMosaic.Lib.ValueIdx

namespace Idealize.ShloMosaic.View

open Idealize.ShloMosaic.ValueIdx

variable {sig : RefSig} {κ : Kind} {sp : Space} {s : Shape} {e : EltTy} {Val : EltTy → Type}

theorem readAt_unit_apply (v : View sig κ sp s e) (f : v.ty.Contents Val) (off sz : Fin s.rank → ℕ)
    (hin : ∀ a, off a + sz a ≤ s.size a) (x : (Rect.unit off sz hin).shape.Idx) :
    v.readAt Val (Rect.unit off sz hin).toLoadRect f x
      = v.read Val f (fun a => ⟨off a + (x a).val, by
          have h1 := hin a; have h2 : (x a).val < sz a := (x a).isLt; omega⟩) := by
  rw [readAt_apply]
  refine congrArg (v.read Val f) (funext fun a => Fin.ext ?_)
  show (Rect.unit off sz hin).off a + (Rect.unit off sz hin).stride a * (x a).val = off a + (x a).val
  rw [Rect.off_unit, Rect.stride_unit, Nat.one_mul]

section Rank2

variable {n0 n1 : ℕ} (v : View sig κ sp (⟨2, ![n0, n1]⟩ : Shape) e) (f : v.ty.Contents Val)

theorem readAt_unit_ix2 {z0 z1 : ℕ} (off : Fin 2 → ℕ)
    (hin : ∀ a, off a + (![z0, z1] : Fin 2 → ℕ) a ≤ (⟨2, ![n0, n1]⟩ : Shape).size a) (a : Fin z0) (b : Fin z1) (o0 o1 : ℕ)
    (ho0 : off 0 = o0) (ho1 : off 1 = o1) :
    v.readAt Val (Rect.unit (s := ⟨2, ![n0, n1]⟩) off ![z0, z1] hin).toLoadRect f (ix2 a b)
      = v.read Val f (ix2 (⟨o0 + a.val, by
            rw [← ho0]; exact Nat.lt_of_lt_of_le (Nat.add_lt_add_left a.isLt (off 0)) (hin 0)⟩ : Fin n0)
          (⟨o1 + b.val, by
            rw [← ho1]; exact Nat.lt_of_lt_of_le (Nat.add_lt_add_left b.isLt (off 1)) (hin 1)⟩ : Fin n1)) := by
  rw [readAt_unit_apply]
  refine congrArg (v.read Val f) (funext fun d => Fin.ext ?_)
  match d with
  | ⟨0, _⟩ => show off 0 + a.val = o0 + a.val; rw [ho0]
  | ⟨1, _⟩ => show off 1 + b.val = o1 + b.val; rw [ho1]

theorem readCov_unit_ix2 [∀ e, Nonempty (Val e)] {z0 z1 : ℕ} (L : List (Piece Val (⟨2, ![n0, n1]⟩ : Shape) e)) (off : Fin 2 → ℕ)
    (hin : ∀ a, off a + (![z0, z1] : Fin 2 → ℕ) a ≤ (⟨2, ![n0, n1]⟩ : Shape).size a) (a : Fin z0) (b : Fin z1) (o0 o1 : ℕ)
    (ho0 : off 0 = o0) (ho1 : off 1 = o1) :
    v.readCov L (Rect.unit (s := ⟨2, ![n0, n1]⟩) off ![z0, z1] hin).toLoadRect (ix2 a b)
      = v.read Val (v.writes Val v.junk L) (ix2 (⟨o0 + a.val, by
            rw [← ho0]; exact Nat.lt_of_lt_of_le (Nat.add_lt_add_left a.isLt (off 0)) (hin 0)⟩ : Fin n0)
          (⟨o1 + b.val, by
            rw [← ho1]; exact Nat.lt_of_lt_of_le (Nat.add_lt_add_left b.isLt (off 1)) (hin 1)⟩ : Fin n1)) :=
  readAt_unit_ix2 v (v.writes Val v.junk L) off hin a b o0 o1 ho0 ho1

end Rank2

section Rank3

variable {n0 n1 n2 : ℕ} (v : View sig κ sp (⟨3, ![n0, n1, n2]⟩ : Shape) e) (f : v.ty.Contents Val)

theorem readAt_unit_ix3 {z0 z1 z2 : ℕ} (off : Fin 3 → ℕ)
    (hin : ∀ a, off a + (![z0, z1, z2] : Fin 3 → ℕ) a ≤ (⟨3, ![n0, n1, n2]⟩ : Shape).size a)
    (a : Fin z0) (b : Fin z1) (c : Fin z2) (o0 o1 o2 : ℕ) (ho0 : off 0 = o0) (ho1 : off 1 = o1) (ho2 : off 2 = o2) :
    v.readAt Val (Rect.unit (s := ⟨3, ![n0, n1, n2]⟩) off ![z0, z1, z2] hin).toLoadRect f (ix3 a b c)
      = v.read Val f (ix3 (⟨o0 + a.val, by
            rw [← ho0]; exact Nat.lt_of_lt_of_le (Nat.add_lt_add_left a.isLt (off 0)) (hin 0)⟩ : Fin n0)
          (⟨o1 + b.val, by
            rw [← ho1]; exact Nat.lt_of_lt_of_le (Nat.add_lt_add_left b.isLt (off 1)) (hin 1)⟩ : Fin n1)
          (⟨o2 + c.val, by
            rw [← ho2]; exact Nat.lt_of_lt_of_le (Nat.add_lt_add_left c.isLt (off 2)) (hin 2)⟩ : Fin n2)) := by
  rw [readAt_unit_apply]
  refine congrArg (v.read Val f) (funext fun d => Fin.ext ?_)
  match d with
  | ⟨0, _⟩ => show off 0 + a.val = o0 + a.val; rw [ho0]
  | ⟨1, _⟩ => show off 1 + b.val = o1 + b.val; rw [ho1]
  | ⟨2, _⟩ => show off 2 + c.val = o2 + c.val; rw [ho2]

end Rank3

end Idealize.ShloMosaic.View
-- ==== Proof.AccMath.lean ====
import proofs.«141847_g74552042324289_cont_9to1_m_1244_12_alg».proof.Proof.InvDefs
import Mathlib.Order.CompleteLattice.Basic

noncomputable section

namespace Cert.KernelIdeal.Val

open KoLeo Idealize.ShloMosaic

theorem pinf_top : KoLeo.pinf = (⊤ : EReal) := by simp [KoLeo.pinf, Ideal.ofBits, Ideal.ieee]

theorem iInf_subtype_or {ι : Type} (f : ι → EReal) {P Q R : ι → Prop} (h : ∀ i, R i ↔ P i ∨ Q i) :
    min (⨅ i : {i // P i}, f i.1) (⨅ i : {i // Q i}, f i.1) = ⨅ i : {i // R i}, f i.1 := by
  apply le_antisymm
  · refine le_iInf fun i => ?_
    rcases (h i.1).1 i.2 with hp | hq
    · exact (min_le_left _ _).trans (iInf_le (fun j : {i // P i} => f j.1) ⟨i.1, hp⟩)
    · exact (min_le_right _ _).trans (iInf_le (fun j : {i // Q i} => f j.1) ⟨i.1, hq⟩)
  · refine le_min (le_iInf fun i => ?_) (le_iInf fun i => ?_)
    · exact iInf_le (fun j : {i // R i} => f j.1) ⟨i.1, (h i.1).2 (Or.inl i.2)⟩
    · exact iInf_le (fun j : {i // R i} => f j.1) ⟨i.1, (h i.1).2 (Or.inr i.2)⟩

theorem iInf_subtype_iff {ι : Type} (f : ι → EReal) {P Q : ι → Prop} (h : ∀ i, P i ↔ Q i) :
    (⨅ i : {i // P i}, f i.1) = ⨅ i : {i // Q i}, f i.1 := by
  apply le_antisymm
  · exact le_iInf fun i => iInf_le (fun j : {i // P i} => f j.1) ⟨i.1, (h i.1).2 i.2⟩
  · exact le_iInf fun i => iInf_le (fun j : {i // Q i} => f j.1) ⟨i.1, (h i.1).1 i.2⟩

/-- Adjacent column ranges glue. -/
theorem rowPart_split (x : XT) (r : Fin 4096) (l : Fin 128) {lo mid hi : ℕ} (h1 : lo ≤ mid) (h2 : mid ≤ hi) :
    min (rowPart x r l lo mid) (rowPart x r l mid hi) = rowPart x r l lo hi := by
  unfold rowPart
  exact iInf_subtype_or (fun c => rowE x r c) (fun c => by omega)

/-- Adjacent row ranges glue. -/
theorem colPart_split (x : XT) (c : Fin 4096) {lo mid hi : ℕ} (h1 : lo ≤ mid) (h2 : mid ≤ hi) :
    min (colPart x c lo mid) (colPart x c mid hi) = colPart x c lo hi := by
  unfold colPart
  exact iInf_subtype_or (fun r => colE x r c) (fun r => by omega)

theorem colPart_empty (x : XT) (c : Fin 4096) {lo hi : ℕ} (h : hi ≤ lo) : colPart x c lo hi = ⊤ := by
  unfold colPart
  haveI : IsEmpty {r : Fin 4096 // lo ≤ r.val ∧ r.val < hi} := ⟨fun r => by have := r.2; omega⟩
  exact iInf_of_empty _

theorem rowMin_eq (x : XT) (p : Fin 4096) : rowMin x p = ⨅ l : Fin 128, rowPart x p l 0 (bandEnd p) := by
  unfold rowMin rowPart bandEnd
  apply le_antisymm
  · refine le_iInf fun l => le_iInf fun c => ?_
    exact iInf_le (fun c : {c : Fin 4096 // c.val / 256 ≤ p.val / 256} => rowE x p c.1) ⟨c.1, by have := c.2; omega⟩
  · refine le_iInf fun c => ?_
    refine (iInf_le (fun l : Fin 128 => ⨅ c : {c : Fin 4096 // c.val % 128 = l.val ∧ 0 ≤ c.val ∧ c.val < 256 * (p.val / 256 + 1)},
      rowE x p c.1) ⟨c.1.val % 128, Nat.mod_lt _ (by decide)⟩).trans ?_
    exact iInf_le (fun c' : {c' : Fin 4096 // c'.val % 128 = c.1.val % 128 ∧ 0 ≤ c'.val ∧ c'.val < 256 * (p.val / 256 + 1)} =>
      rowE x p c'.1) ⟨c.1, rfl, Nat.zero_le _, by have := c.2; omega⟩

theorem colMin_eq (x : XT) (p : Fin 4096) : colMin x p = colPart x p (bandEnd p) 4096 := by
  unfold colMin colPart bandEnd
  exact iInf_subtype_iff (fun r => colE x r p) (fun r => by have := r.isLt; omega)

/-- Full accumulators and the row's square sum give the kernel's clamped squared distance. -/
theorem kerMd2_of_parts (x : XT) (p : Fin 4096) (racc : Fin 128 → EReal) (hr : ∀ l, racc l = rowPart x p l 0 (bandEnd p))
    (cacc : EReal) (hc : cacc = colPart x p (bandEnd p) 4096) (nrm nrm' : EReal) (hn : nrm = KoLeo.sq x p) (hn' : nrm' = KoLeo.sq x p) :
    max (min ((⨅ l : Fin 128, racc l) + nrm) (cacc + nrm')) z0 = kerMd2 x p := by
  rw [iInf_congr hr, hc, hn, hn', ← rowMin_eq, ← colMin_eq]
  rfl

end Cert.KernelIdeal.Val

end
-- ==== Proof.PayPrep.lean ====
import proofs.«141847_g74552042324289_cont_9to1_m_1244_12_alg».proof.Proof.Gen.KernelIdeal.Skeleton
import proofs.«141847_g74552042324289_cont_9to1_m_1244_12_alg».proof.Proof.InvDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen KoLeo

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

theorem pinf_eq_top : pinf = (⊤ : EReal) := by
  simp [KoLeo.pinf, Ideal.ofBits, Ideal.ieee]

theorem pay16_apply (i : S4096x128.Idx) : k0_pay16 (F := Ideal) i = pinf := by
  unfold k0_pay16
  rw [shapeCast_self]
  rfl

theorem pay17_apply (i : S8x1x512.Idx) : k0_pay17 (F := Ideal) i = pinf := by
  unfold k0_pay17
  rw [shapeCast_self]
  rfl

theorem pay18_lhs (x : XT) (g : Fin 8) (v3 : Vec Ideal S512x1024 .f32) (h3 : IsBlock x g v3) :
    IsLhs x g (k0_pay18 (F := Ideal) v3) := by
  intro a q
  unfold k0_pay18
  exact h3 a q

theorem pay19_scaled (x : XT) (g : Fin 8) (v3 : Vec Ideal S512x1024 .f32) (h3 : IsBlock x g v3) (a : Fin 512) (q : Fin 1024) :
    k0_pay19 (F := Ideal) v3 (ix2 a q) = m2 * x (ix2 (rowOf g a) q) := by
  unfold k0_pay19
  show m2 * v3 (ix2 a q) = m2 * x (ix2 (rowOf g a) q)
  rw [h3 a q]

theorem pay20_scaled (x : XT) (g : Fin 8) (v3 : Vec Ideal S512x1024 .f32) (h3 : IsBlock x g v3) :
    IsScaled x g (k0_pay20 (F := Ideal) v3) := by
  intro j q
  unfold k0_pay20
  rw [shapeCast_self]
  exact pay19_scaled x g v3 h3 j q

theorem pay21_col (x : XT) (g : Fin 8) (v3 : Vec Ideal S512x1024 .f32) (h3 : IsBlock x g v3) :
    IsNormCol x g (k0_pay21 (F := Ideal) v3) := by
  intro a
  unfold k0_pay21
  refine (shapeCast_a_a1_apply _ _ a 0).trans ?_
  refine (Ideal.multiReduction_add_single _ _ _ _ _ _).trans ?_
  unfold KoLeo.sq
  refine Finset.sum_congr rfl fun k _ => ?_

  have hl : reduces_S512x1024_S512.lift (ix1 a) k = (ix2 a (show Fin 1024 from k) : S512x1024.Idx) := by
    funext d; match d with | ⟨0, _⟩ => rfl | ⟨1, _⟩ => rfl
  refine (mulf_apply v3 v3 _).trans ?_
  rw [hl]
  exact congrArg (fun t => t * t) (h3 a k)

theorem pay22_flat (x : XT) (g : Fin 8) (v3 : Vec Ideal S512x1024 .f32) (h3 : IsBlock x g v3) :
    IsNormFlat x g (k0_pay22 (F := Ideal) v3) := by
  intro a
  unfold k0_pay22
  exact (shapeCast_a1_1a_apply _ _ 0 a).trans (pay21_col x g v3 h3 a)

theorem pay23_col (x : XT) (g : Fin 8) (v3 : Vec Ideal S512x1024 .f32) (h3 : IsBlock x g v3) (a : Fin 512) :
    k0_pay23 (F := Ideal) v3 (ix2 a (0 : Fin 1)) = sq x (rowOf g a) := by
  unfold k0_pay23
  rw [shapeCast_self]
  exact pay21_col x g v3 h3 a

theorem pay24_row (x : XT) (g : Fin 8) (v3 : Vec Ideal S512x1024 .f32) (h3 : IsBlock x g v3) :
    IsNormRow x g (k0_pay24 (F := Ideal) v3) := by
  intro j
  unfold k0_pay24
  rw [shapeCast_self]
  exact (shapeCast_ab_1ab_apply _ _ 0 0 j).trans (pay22_flat x g v3 h3 j)

end Cert.KernelIdeal.Val

end
-- ==== Proof.PayTile.lean ====
import proofs.«141847_g74552042324289_cont_9to1_m_1244_12_alg».proof.Proof.Gen.KernelIdeal.Skeleton
import proofs.«141847_g74552042324289_cont_9to1_m_1244_12_alg».proof.Proof.InvDefs
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Mathlib.Data.Fintype.Lattice

noncomputable section

namespace Cert.KernelIdeal.Val

open Idealize.ShloMosaic Idealize.ShloMosaic.ValueIdx Cert.KernelIdeal Cert.KernelIdeal.Gen KoLeo
open scoped BigOperators

namespace PayTile

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_tile_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_tile_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_tile_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_tile_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

theorem tile_matmul_apply (L R : FVec Ideal S512x1024 .bf16) (a j : Fin 512) :
    matmul dot_S512x1024_S512x1024_S512x512_1_1_0_0_n_n none L R (constant (F := Ideal) S512x512 .f32 0x00000000#32) (ix2 a j)
      = ∑ q : Fin 1024, L (ix2 a q) * R (ix2 j q) := by
  simp only [matmul]
  rw [Ideal.matmul_constant_zero_apply, ← Equiv.sum_comp (contrEquiv1 dot_S512x1024_S512x1024_S512x512_1_1_0_0_n_n 1024 rfl rfl).symm]
  refine Finset.sum_congr rfl fun q _ => ?_
  have hq := contrEquiv1_symm_val dot_S512x1024_S512x1024_S512x512_1_1_0_0_n_n 1024 rfl rfl q
  have el : dot_S512x1024_S512x1024_S512x512_1_1_0_0_n_n.lhsIdx (ix2 a j) ((contrEquiv1 dot_S512x1024_S512x1024_S512x512_1_1_0_0_n_n 1024 rfl rfl).symm q) = ix2 a q := funext fun ax => Fin.ext (by
    match ax with
    | ⟨0, _⟩ => exact lhs_tile_0 _ _
    | ⟨1, _⟩ => exact (lhs_tile_1 _ _).trans hq)
  have er : dot_S512x1024_S512x1024_S512x512_1_1_0_0_n_n.rhsIdx (ix2 a j) ((contrEquiv1 dot_S512x1024_S512x1024_S512x512_1_1_0_0_n_n 1024 rfl rfl).symm q) = ix2 j q := funext fun ax => Fin.ext (by
    match ax with
    | ⟨0, _⟩ => exact rhs_tile_0 _ _
    | ⟨1, _⟩ => exact (rhs_tile_1 _ _).trans hq)
  rw [el, er]

theorem rowOf_ne (g k : Fin 8) (hk : k.val < g.val) (a j : Fin 512) : rowOf g a ≠ rowOf k j := by
  intro h
  have hv : 512 * g.val + a.val = 512 * k.val + j.val := congrArg Fin.val h
  have := a.isLt; have := j.isLt
  omega

theorem row_entry (x : XT) (g k : Fin 8) (hk : k.val < g.val) (v5 : FVec Ideal S512x1024 .bf16) (h5 : IsLhs x g v5)
    (v127 : Vec Ideal S512x1024 .bf16) (h127 : IsScaled x k v127) (v129 : Vec Ideal S1x1x512 .f32) (h129 : IsNormRow x k v129)
    (a j : Fin 512) :
    v129 (ix3 (0 : Fin 1) (0 : Fin 1) j) + ∑ q : Fin 1024, v5 (ix2 a q) * v127 (ix2 j q)
      = rowE x (rowOf g a) (rowOf k j) := by
  rw [rowE, if_neg (rowOf_ne g k hk a j), gp, h129 j]
  exact congrArg (_ + ·) (Finset.sum_congr rfl fun q _ => by rw [h5 a q, h127 j q])

theorem col_entry (x : XT) (g k : Fin 8) (v5 : FVec Ideal S512x1024 .bf16) (h5 : IsLhs x g v5)
    (v15 : FVec Ideal S512x1 .f32) (h15 : IsNormCol x g v15) (v127 : Vec Ideal S512x1024 .bf16) (h127 : IsScaled x k v127)
    (a j : Fin 512) :
    v15 (ix2 a (0 : Fin 1)) + ∑ q : Fin 1024, v5 (ix2 a q) * v127 (ix2 j q)
      = colE x (rowOf g a) (rowOf k j) := by
  rw [colE, gp, h15 a]
  exact congrArg (_ + ·) (Finset.sum_congr rfl fun q _ => by rw [h5 a q, h127 j q])

theorem iInf_lane_block (f : Fin 4096 → EReal) (k : Fin 8) (l : Fin 128) (j0 j1 j2 j3 : Fin 512)
    (h0 : j0.val = 0 + l.val) (h1 : j1.val = 128 + l.val) (h2 : j2.val = 256 + l.val) (h3 : j3.val = 384 + l.val) :
    (⨅ c : {c : Fin 4096 // c.val % 128 = l.val ∧ 512 * k.val ≤ c.val ∧ c.val < 512 * k.val + 512}, f c.1)
      = min (min (f (rowOf k j0)) (f (rowOf k j1))) (min (f (rowOf k j2)) (f (rowOf k j3))) := by
  have hl := l.isLt
  apply le_antisymm
  · refine le_min (le_min ?_ ?_) (le_min ?_ ?_)
    · exact iInf_le_of_le ⟨rowOf k j0, by
        show (512 * k.val + j0.val) % 128 = l.val ∧ 512 * k.val ≤ 512 * k.val + j0.val ∧ 512 * k.val + j0.val < 512 * k.val + 512
        omega⟩ le_rfl
    · exact iInf_le_of_le ⟨rowOf k j1, by
        show (512 * k.val + j1.val) % 128 = l.val ∧ 512 * k.val ≤ 512 * k.val + j1.val ∧ 512 * k.val + j1.val < 512 * k.val + 512
        omega⟩ le_rfl
    · exact iInf_le_of_le ⟨rowOf k j2, by
        show (512 * k.val + j2.val) % 128 = l.val ∧ 512 * k.val ≤ 512 * k.val + j2.val ∧ 512 * k.val + j2.val < 512 * k.val + 512
        omega⟩ le_rfl
    · exact iInf_le_of_le ⟨rowOf k j3, by
        show (512 * k.val + j3.val) % 128 = l.val ∧ 512 * k.val ≤ 512 * k.val + j3.val ∧ 512 * k.val + j3.val < 512 * k.val + 512
        omega⟩ le_rfl
  · refine le_iInf fun c => ?_
    obtain ⟨c, hc1, hc2, hc3⟩ := c
    have hcases : c.val = 512 * k.val + j0.val ∨ c.val = 512 * k.val + j1.val ∨ c.val = 512 * k.val + j2.val
        ∨ c.val = 512 * k.val + j3.val := by omega
    rcases hcases with h | h | h | h
    · have e : c = rowOf k j0 := Fin.ext h
      show _ ≤ f c
      rw [e]; exact le_trans (min_le_left _ _) (min_le_left _ _)
    · have e : c = rowOf k j1 := Fin.ext h
      show _ ≤ f c
      rw [e]; exact le_trans (min_le_left _ _) (min_le_right _ _)
    · have e : c = rowOf k j2 := Fin.ext h
      show _ ≤ f c
      rw [e]; exact le_trans (min_le_right _ _) (min_le_left _ _)
    · have e : c = rowOf k j3 := Fin.ext h
      show _ ≤ f c
      rw [e]; exact le_trans (min_le_right _ _) (min_le_right _ _)

theorem iInf_block_rows (f : Fin 4096 → EReal) (g : Fin 8) :
    (⨅ a : Fin 512, f (rowOf g a))
      = ⨅ r : {r : Fin 4096 // 512 * g.val ≤ r.val ∧ r.val < 512 * g.val + 512}, f r.1 := by
  apply le_antisymm
  · refine le_iInf fun r => ?_
    obtain ⟨r, hr1, hr2⟩ := r
    refine iInf_le_of_le ⟨r.val - 512 * g.val, by omega⟩ (le_of_eq (congrArg f (Fin.ext ?_)))
    show 512 * g.val + (r.val - 512 * g.val) = r.val
    omega
  · exact le_iInf fun a => iInf_le_of_le ⟨rowOf g a, by
      show 512 * g.val ≤ 512 * g.val + a.val ∧ 512 * g.val + a.val < 512 * g.val + 512
      have := a.isLt; omega⟩ le_rfl

theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

theorem fold_min_top_eq_iInf {ι : Type} [Fintype ι] (f : ι → EReal) :
    (Finset.univ : Finset ι).fold min ⊤ f = ⨅ i, f i := by
  rw [← Finset.inf_univ_eq_iInf]; rfl

theorem pinf_top : Ideal.ofBits .f32 0x7F800000#32 = ⊤ := by simp [Ideal.ofBits, Ideal.ieee]

end PayTile

open PayTile

/-- A tile's row-side update: the old value against block `k`'s columns of the lane class. -/
theorem pay35_spec (x : XT) (g k : Fin 8) (hk : k.val < g.val) (v5 : FVec Ideal S512x1024 .bf16) (h5 : IsLhs x g v5)
    (v127 : Vec Ideal S512x1024 .bf16) (h127 : IsScaled x k v127) (v129 : Vec Ideal S1x1x512 .f32) (h129 : IsNormRow x k v129)
    (v134 : Vec Ideal S512x128 .f32) (a : Fin 512) (l : Fin 128) :
    k0_pay35 (F := Ideal) v5 v127 v129 v134 (ix2 a l)
      = min (v134 (ix2 a l)) (rowPart x (rowOf g a) l (512 * k.val) (512 * k.val + 512)) := by
  have hent : ∀ j : Fin 512,
      addf (broadcastTo S512x512 (shapeCast S1x512 v129 shapeCasts_S1x1x512_S1x512) broadcasts_S1x512_S512x512)
          (k0_pay34 (F := Ideal) v5 v127) (ix2 a j)
        = rowE x (rowOf g a) (rowOf k j) := by
    intro j
    unfold k0_pay34
    rw [addf_apply, broadcastTo_1b_ab_apply, shapeCast_1ab_ab_apply, tile_matmul_apply]
    exact row_entry x g k hk v5 h5 v127 h127 v129 h129 a j
  unfold k0_pay35
  simp only [shapeCast_self, minimumf_apply, slice2_axis1_eq, hent]
  unfold rowPart
  exact congrArg (min _) (iInf_lane_block _ k l _ _ _ _ rfl rfl rfl rfl).symm

/-- A tile's column-side update: the old value against block `g`'s rows. -/
theorem pay36_spec (x : XT) (g k : Fin 8) (hk : k.val < g.val) (v5 : FVec Ideal S512x1024 .bf16) (h5 : IsLhs x g v5)
    (v15 : FVec Ideal S512x1 .f32) (h15 : IsNormCol x g v15)
    (v127 : Vec Ideal S512x1024 .bf16) (h127 : IsScaled x k v127) (v149 : Vec Ideal S1x1x512 .f32) (j : Fin 512) :
    k0_pay36 (F := Ideal) v5 v15 v127 v149 (ix3 (0 : Fin 1) (0 : Fin 1) j)
      = min (v149 (ix3 (0 : Fin 1) (0 : Fin 1) j)) (colPart x (rowOf k j) (512 * g.val) (512 * g.val + 512)) := by
  have hent : ∀ a : Fin 512,
      addf (broadcastTo S512x512 v15 broadcasts_S512x1_S512x512) (k0_pay34 (F := Ideal) v5 v127)
          (reduces_S512x512_S512.lift (ix1 j) a)
        = colE x (rowOf g a) (rowOf k j) := by
    intro a
    have e : reduces_S512x512_S512.lift (ix1 j) a = ix2 a j :=
      funext fun ax => Fin.ext (by match ax with | ⟨0, _⟩ => rfl | ⟨1, _⟩ => rfl)
    unfold k0_pay34
    rw [e, addf_apply, broadcastTo_a1_ab_apply, tile_matmul_apply]
    exact col_entry x g k v5 h5 v15 h15 v127 h127 a j
  unfold k0_pay36
  refine (shapeCast_ab_1ab_apply _ _ (0 : Fin 1) (0 : Fin 1) j).trans ?_
  rw [minimumf_apply]
  refine congrArg₂ min (shapeCast_1ab_ab_apply _ _ (0 : Fin 1) j) ?_
  refine (shapeCast_a_1a_apply _ _ (0 : Fin 1) j).trans ?_
  refine (multiReduction_minimumf_single _ _ reduces_S512x512_S512 _ _ (ix1 j)).trans ?_
  rw [show (FloatOps.ofBits (F := Ideal) .f32 0x7F800000#32) = ⊤ from pinf_top]
  refine (fold_min_top_eq_iInf _).trans ?_
  unfold colPart
  exact (iInf_congr hent).trans (iInf_block_rows (fun r => colE x r (rowOf k j)) g)

end Cert.KernelIdeal.Val

end
-- ==== Proof.PayDiag.lean ====
import proofs.«141847_g74552042324289_cont_9to1_m_1244_12_alg».proof.Proof.Gen.KernelIdeal.Skeleton
import proofs.«141847_g74552042324289_cont_9to1_m_1244_12_alg».proof.Proof.InvDefs
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Mathlib.Data.Finset.Fold
import Mathlib.Order.CompleteLattice.Basic

noncomputable section

namespace Cert.KernelIdeal.Val

open Idealize.ShloMosaic Idealize.ShloMosaic.ValueIdx Cert.KernelIdeal Cert.KernelIdeal.Gen KoLeo
open scoped BigOperators

theorem pd_lhs_d256_0 (i : S256x256.Idx) (q : dot_S256x1024_S256x1024_S256x256_1_1_0_0_n_n.contr.Idx) :
    (dot_S256x1024_S256x1024_S256x256_1_1_0_0_n_n.lhsIdx i q 0).val = (i 0).val := by
  unfold DotDims.lhsIdx
  rw [dif_neg (show ¬(0 : Fin S256x1024.rank) ∈ dot_S256x1024_S256x1024_S256x256_1_1_0_0_n_n.lhsBatch by decide), dif_pos (show (0 : Fin S256x1024.rank) ∈ dot_S256x1024_S256x1024_S256x256_1_1_0_0_n_n.lhsNonContracting by decide)]
  rfl
theorem pd_lhs_d256_1 (i : S256x256.Idx) (q : dot_S256x1024_S256x1024_S256x256_1_1_0_0_n_n.contr.Idx) :
    (dot_S256x1024_S256x1024_S256x256_1_1_0_0_n_n.lhsIdx i q 1).val = (q ⟨0, by decide⟩).val :=
  dot_S256x1024_S256x1024_S256x256_1_1_0_0_n_n.lhsIdx_val_of_single rfl i q
theorem pd_rhs_d256_0 (i : S256x256.Idx) (q : dot_S256x1024_S256x1024_S256x256_1_1_0_0_n_n.contr.Idx) :
    (dot_S256x1024_S256x1024_S256x256_1_1_0_0_n_n.rhsIdx i q 0).val = (i 1).val := by
  unfold DotDims.rhsIdx
  rw [dif_neg (show ¬(0 : Fin S256x1024.rank) ∈ dot_S256x1024_S256x1024_S256x256_1_1_0_0_n_n.rhsBatch by decide), dif_pos (show (0 : Fin S256x1024.rank) ∈ dot_S256x1024_S256x1024_S256x256_1_1_0_0_n_n.rhsNonContracting by decide)]
  rfl
theorem pd_rhs_d256_1 (i : S256x256.Idx) (q : dot_S256x1024_S256x1024_S256x256_1_1_0_0_n_n.contr.Idx) :
    (dot_S256x1024_S256x1024_S256x256_1_1_0_0_n_n.rhsIdx i q 1).val = (q ⟨0, by decide⟩).val :=
  dot_S256x1024_S256x1024_S256x256_1_1_0_0_n_n.rhsIdx_val_of_single rfl i q

theorem pd_mm256_apply (L R : FVec Ideal S256x1024 .bf16) (a b : Fin 256) :
    matmul dot_S256x1024_S256x1024_S256x256_1_1_0_0_n_n none L R (constant (F := Ideal) S256x256 .f32 0x00000000#32) (ix2 a b)
      = ∑ k : Fin 1024, L (ix2 a k) * R (ix2 b k) := by
  simp only [matmul]
  rw [Ideal.matmul_constant_zero_apply, ← Equiv.sum_comp (contrEquiv1 dot_S256x1024_S256x1024_S256x256_1_1_0_0_n_n 1024 rfl rfl).symm]
  refine Finset.sum_congr rfl fun k _ => ?_
  have hk := contrEquiv1_symm_val dot_S256x1024_S256x1024_S256x256_1_1_0_0_n_n 1024 rfl rfl k
  have el : dot_S256x1024_S256x1024_S256x256_1_1_0_0_n_n.lhsIdx (ix2 a b) ((contrEquiv1 dot_S256x1024_S256x1024_S256x256_1_1_0_0_n_n 1024 rfl rfl).symm k) = ix2 a k := funext fun c => Fin.ext (by
    match c with
    | ⟨0, _⟩ => exact pd_lhs_d256_0 _ _
    | ⟨1, _⟩ => exact (pd_lhs_d256_1 _ _).trans hk)
  have er : dot_S256x1024_S256x1024_S256x256_1_1_0_0_n_n.rhsIdx (ix2 a b) ((contrEquiv1 dot_S256x1024_S256x1024_S256x256_1_1_0_0_n_n 1024 rfl rfl).symm k) = ix2 b k := funext fun c => Fin.ext (by
    match c with
    | ⟨0, _⟩ => exact pd_rhs_d256_0 _ _
    | ⟨1, _⟩ => exact (pd_rhs_d256_1 _ _).trans hk)
  rw [el, er]

theorem pd_rowOf_lo (g : Fin 8) (a : Fin 256) (h : 0 + a.val < 512) : rowOf g ⟨0 + a.val, h⟩ = subRow g 0 a :=
  Fin.ext (by simp only [rowOf, subRow]; have : ((0 : Fin 2) : ℕ) = 0 := rfl; omega)
theorem pd_rowOf_hi (g : Fin 8) (a : Fin 256) (h : 256 + a.val < 512) : rowOf g ⟨256 + a.val, h⟩ = subRow g 1 a :=
  Fin.ext (by simp only [rowOf, subRow]; have : ((1 : Fin 2) : ℕ) = 1 := rfl; omega)

theorem pd_gp_rows (x : XT) (g : Fin 8) (v5 : FVec Ideal S512x1024 .bf16) (h5 : IsLhs x g v5) (v8 : FVec Ideal S512x1024 .bf16)
    (h8 : ∀ (a : Fin 512) (q : Fin 1024), v8 (ix2 a q) = m2 * x (ix2 (rowOf g a) q)) (p q : Fin 512) :
    ∑ k : Fin 1024, v5 (ix2 p k) * v8 (ix2 q k) = gp x (rowOf g p) (rowOf g q) := by
  unfold gp
  exact Finset.sum_congr rfl fun k _ => by rw [h5 p k, h8 q k]

theorem pay47_spec (x : XT) (g : Fin 8) (v5 : FVec Ideal S512x1024 .bf16) (h5 : IsLhs x g v5) (v8 : FVec Ideal S512x1024 .bf16)
    (h8 : ∀ (a : Fin 512) (q : Fin 1024), v8 (ix2 a q) = m2 * x (ix2 (rowOf g a) q)) (a b : Fin 256) :
    k0_pay47 (F := Ideal) v5 v8 (ix2 a b) = gp x (subRow g 1 a) (subRow g 0 b) := by
  unfold k0_pay47
  refine (pd_mm256_apply _ _ a b).trans ?_
  simp only [slice2_axis0_eq]
  rw [pd_gp_rows x g v5 h5 v8 h8, pd_rowOf_hi, pd_rowOf_lo]

theorem pay48_spec (x : XT) (g : Fin 8) (v16 : FVec Ideal S1x512 .f32) (h16 : IsNormFlat x g v16) (a b : Fin 256) :
    k0_pay48 (F := Ideal) v16 (ix2 a b) = sq x (subRow g 0 b) := by
  unfold k0_pay48
  rw [broadcastTo_1b_ab_apply, slice2_axis1_eq, h16, pd_rowOf_lo]

theorem pay1_apply (v115 : Vec Ideal S256x128 .f32) (v118 : FVec Ideal S256x128 .f32) (i : S256x128.Idx) :
    k0_pay1 (F := Ideal) v115 v118 i = min (v115 i) (v118 i) := by
  unfold k0_pay1
  rw [shapeCast_self]
  rfl

theorem pd_select_coord_eq (a b : Fin 256) (A B : EReal) :
    Scalar.select (IntOp.cmpi .eq (BitVec.ofNat 32 a.val) (BitVec.ofNat 32 b.val)) A B = if a = b then A else B := by
  have hw : BitVec.ofNat 32 a.val = BitVec.ofNat 32 b.val → a = b := by
    intro h
    have := congrArg BitVec.toNat h
    simp only [BitVec.toNat_ofNat] at this
    exact Fin.ext (by have := a.isLt; have := b.isLt; omega)
  by_cases h : a = b
  · subst h; simp [Scalar.select, IntOp.cmpi]
  · have hb : (BitVec.ofNat 32 a.val == BitVec.ofNat 32 b.val) = false := beq_eq_false_iff_ne.mpr (fun e => h (hw e))
    rw [if_neg h]
    unfold Scalar.select IntOp.cmpi
    simp only [hb]
    rfl

theorem pd_masked_tile_apply (L R : FVec Ideal S256x1024 .bf16) (N : FVec Ideal S1x256 .f32) (a b : Fin 256) :
    select (cmpi .eq (iota .tc S256x256 32 [0] iota_S256x256_d0_w32) (iota .tc S256x256 32 [1] iota_S256x256_d1_w32))
        (broadcast S256x256 (Scalar.ofBits (F := Ideal) .f32 0x7F800000#32))
        (addf (broadcastTo S256x256 N broadcasts_S1x256_S256x256)
          (matmul dot_S256x1024_S256x1024_S256x256_1_1_0_0_n_n none L R (constant (F := Ideal) S256x256 .f32 0x00000000#32))) (ix2 a b)
      = if a = b then pinf else N (ix2 (0 : Fin 1) b) + ∑ k : Fin 1024, L (ix2 a k) * R (ix2 b k) := by
  rw [select_apply, addf_apply, pd_mm256_apply, broadcastTo_1b_ab_apply, broadcast_apply]
  show Scalar.select (IntOp.cmpi .eq (iota .tc S256x256 32 [0] iota_S256x256_d0_w32 (ix2 a b)) (iota .tc S256x256 32 [1] iota_S256x256_d1_w32 (ix2 a b))) _ _ = _
  rw [iota_single_apply, iota_single_apply]
  exact pd_select_coord_eq a b _ _

theorem pd_rowE_diag (x : XT) (g : Fin 8) (s : Fin 2) (a b : Fin 256) :
    rowE x (subRow g s a) (subRow g s b) = if a = b then pinf else sq x (subRow g s b) + gp x (subRow g s a) (subRow g s b) := by
  unfold rowE
  by_cases h : a = b
  · subst h; rw [if_pos rfl, if_pos rfl]
  · rw [if_neg h, if_neg]
    intro e
    apply h
    have := congrArg Fin.val e
    simp only [subRow] at this
    exact Fin.ext (by omega)

theorem pd_rowE_off (x : XT) (g : Fin 8) (a b : Fin 256) :
    rowE x (subRow g 1 a) (subRow g 0 b) = sq x (subRow g 0 b) + gp x (subRow g 1 a) (subRow g 0 b) := by
  unfold rowE
  rw [if_neg]
  intro e
  have := congrArg Fin.val e
  simp only [subRow] at this
  have h0 : ((0 : Fin 2) : ℕ) = 0 := rfl
  have h1 : ((1 : Fin 2) : ℕ) = 1 := rfl
  have := b.isLt
  omega

theorem pd_tile00_apply (x : XT) (g : Fin 8) (v5 : FVec Ideal S512x1024 .bf16) (h5 : IsLhs x g v5) (v8 : FVec Ideal S512x1024 .bf16)
    (h8 : ∀ (a : Fin 512) (q : Fin 1024), v8 (ix2 a q) = m2 * x (ix2 (rowOf g a) q))
    (v16 : FVec Ideal S1x512 .f32) (h16 : IsNormFlat x g v16) (a b : Fin 256) :
    select (cmpi .eq (iota .tc S256x256 32 [0] iota_S256x256_d0_w32) (iota .tc S256x256 32 [1] iota_S256x256_d1_w32))
        (broadcast S256x256 (Scalar.ofBits (F := Ideal) .f32 0x7F800000#32))
        (addf (broadcastTo S256x256 (extractStridedSlice S1x256 ![0, 0] v16 slices_S1x512_o0_0_S1x256) broadcasts_S1x256_S256x256)
          (matmul dot_S256x1024_S256x1024_S256x256_1_1_0_0_n_n none
            (extractStridedSlice S256x1024 ![0, 0] v5 slices_S512x1024_o0_0_S256x1024)
            (extractStridedSlice S256x1024 ![0, 0] v8 slices_S512x1024_o0_0_S256x1024)
            (constant (F := Ideal) S256x256 .f32 0x00000000#32))) (ix2 a b)
      = rowE x (subRow g 0 a) (subRow g 0 b) := by
  have h16' : ∀ j : Fin 512, v16 (ix2 (0 : Fin 1) j) = sq x (rowOf g j) := h16
  rw [pd_masked_tile_apply, pd_rowE_diag]
  simp only [slice2_axis1_eq, slice2_axis0_eq]
  rw [h16', pd_gp_rows x g v5 h5 v8 h8, pd_rowOf_lo, pd_rowOf_lo]

theorem pd_tile11_apply (x : XT) (g : Fin 8) (v5 : FVec Ideal S512x1024 .bf16) (h5 : IsLhs x g v5) (v8 : FVec Ideal S512x1024 .bf16)
    (h8 : ∀ (a : Fin 512) (q : Fin 1024), v8 (ix2 a q) = m2 * x (ix2 (rowOf g a) q))
    (v16 : FVec Ideal S1x512 .f32) (h16 : IsNormFlat x g v16) (a b : Fin 256) :
    select (cmpi .eq (iota .tc S256x256 32 [0] iota_S256x256_d0_w32) (iota .tc S256x256 32 [1] iota_S256x256_d1_w32))
        (broadcast S256x256 (Scalar.ofBits (F := Ideal) .f32 0x7F800000#32))
        (addf (broadcastTo S256x256 (extractStridedSlice S1x256 ![0, 256] v16 slices_S1x512_o0_256_S1x256) broadcasts_S1x256_S256x256)
          (matmul dot_S256x1024_S256x1024_S256x256_1_1_0_0_n_n none
            (extractStridedSlice S256x1024 ![256, 0] v5 slices_S512x1024_o256_0_S256x1024)
            (extractStridedSlice S256x1024 ![256, 0] v8 slices_S512x1024_o256_0_S256x1024)
            (constant (F := Ideal) S256x256 .f32 0x00000000#32))) (ix2 a b)
      = rowE x (subRow g 1 a) (subRow g 1 b) := by
  have h16' : ∀ j : Fin 512, v16 (ix2 (0 : Fin 1) j) = sq x (rowOf g j) := h16
  rw [pd_masked_tile_apply, pd_rowE_diag]
  simp only [slice2_axis1_eq, slice2_axis0_eq]
  rw [h16', pd_gp_rows x g v5 h5 v8 h8, pd_rowOf_hi, pd_rowOf_hi]

theorem pd_rowPart_two (x : XT) (r : Fin 4096) (l : Fin 128) (lo hi : ℕ) (hlo : lo % 128 = 0) (hhi : hi = lo + 256)
    (b1 : lo + l.val < 4096) (b2 : lo + 128 + l.val < 4096) :
    rowPart x r l lo hi = min (rowE x r ⟨lo + l.val, b1⟩) (rowE x r ⟨lo + 128 + l.val, b2⟩) := by
  unfold rowPart
  have hl := l.isLt
  apply le_antisymm
  · refine le_min ?_ ?_
    · exact iInf_le (fun c : {c : Fin 4096 // c.val % 128 = l.val ∧ lo ≤ c.val ∧ c.val < hi} => rowE x r c.1)
        ⟨⟨lo + l.val, b1⟩, by simp only; omega, by simp only; omega, by simp only; omega⟩
    · exact iInf_le (fun c : {c : Fin 4096 // c.val % 128 = l.val ∧ lo ≤ c.val ∧ c.val < hi} => rowE x r c.1)
        ⟨⟨lo + 128 + l.val, b2⟩, by simp only; omega, by simp only; omega, by simp only; omega⟩
  · refine le_iInf fun c => ?_
    obtain ⟨c, h1, h2, h3⟩ := c
    have hc : c.val = lo + l.val ∨ c.val = lo + 128 + l.val := by omega
    rcases hc with hc | hc
    · have e : c = ⟨lo + l.val, b1⟩ := Fin.ext hc
      subst e; exact min_le_left _ _
    · have e : c = ⟨lo + 128 + l.val, b2⟩ := Fin.ext hc
      subst e; exact min_le_right _ _

/-- The diagonal tile's first subtile, diagonal masked: the first half's rows gain their own half's columns. -/
theorem pay46_spec (x : XT) (g : Fin 8) (v5 : FVec Ideal S512x1024 .bf16) (h5 : IsLhs x g v5) (v8 : FVec Ideal S512x1024 .bf16)
    (h8 : ∀ (a : Fin 512) (q : Fin 1024), v8 (ix2 a q) = m2 * x (ix2 (rowOf g a) q))
    (v16 : FVec Ideal S1x512 .f32) (h16 : IsNormFlat x g v16) (v61 : Vec Ideal S256x128 .f32) (a : Fin 256) (l : Fin 128) :
    k0_pay46 (F := Ideal) v5 v8 v16 v61 (ix2 a l) = min (v61 (ix2 a l)) (rowPart x (subRow g 0 a) l (512 * g.val) (512 * g.val + 256)) := by
  have hl := l.isLt
  have hg := g.isLt
  have c1 : ∀ (h : 0 + l.val < 256) (b : 512 * g.val + l.val < 4096), (⟨512 * g.val + l.val, b⟩ : Fin 4096) = subRow g 0 ⟨0 + l.val, h⟩ :=
    fun h b => Fin.ext (by simp only [subRow]; have : ((0 : Fin 2) : ℕ) = 0 := rfl; omega)
  have c2 : ∀ (h : 128 + l.val < 256) (b : 512 * g.val + 128 + l.val < 4096), (⟨512 * g.val + 128 + l.val, b⟩ : Fin 4096) = subRow g 0 ⟨128 + l.val, h⟩ :=
    fun h b => Fin.ext (by simp only [subRow]; have : ((0 : Fin 2) : ℕ) = 0 := rfl; omega)
  unfold k0_pay46
  rw [shapeCast_self]
  simp only [minimumf_apply, slice2_axis1_eq]
  rw [pd_tile00_apply x g v5 h5 v8 h8 v16 h16, pd_tile00_apply x g v5 h5 v8 h8 v16 h16,
    pd_rowPart_two x (subRow g 0 a) l (512 * g.val) (512 * g.val + 256) (by omega) rfl (by omega) (by omega),
    c1 (by omega), c2 (by omega)]

/-- The off-diagonal subtile: the second half's rows gain the first half's columns. -/
theorem pay49_spec (x : XT) (g : Fin 8) (v72 : FVec Ideal S256x256 .f32) (h72 : ∀ a b : Fin 256, v72 (ix2 a b) = gp x (subRow g 1 a) (subRow g 0 b))
    (v74 : FVec Ideal S256x256 .f32) (h74 : ∀ a b : Fin 256, v74 (ix2 a b) = sq x (subRow g 0 b)) (v79 : Vec Ideal S256x128 .f32) (a : Fin 256) (l : Fin 128) :
    k0_pay49 (F := Ideal) v72 v74 v79 (ix2 a l) = min (v79 (ix2 a l)) (rowPart x (subRow g 1 a) l (512 * g.val) (512 * g.val + 256)) := by
  have hl := l.isLt
  have hg := g.isLt
  have c1 : ∀ (h : 0 + l.val < 256) (b : 512 * g.val + l.val < 4096), (⟨512 * g.val + l.val, b⟩ : Fin 4096) = subRow g 0 ⟨0 + l.val, h⟩ :=
    fun h b => Fin.ext (by simp only [subRow]; have : ((0 : Fin 2) : ℕ) = 0 := rfl; omega)
  have c2 : ∀ (h : 128 + l.val < 256) (b : 512 * g.val + 128 + l.val < 4096), (⟨512 * g.val + 128 + l.val, b⟩ : Fin 4096) = subRow g 0 ⟨128 + l.val, h⟩ :=
    fun h b => Fin.ext (by simp only [subRow]; have : ((0 : Fin 2) : ℕ) = 0 := rfl; omega)
  unfold k0_pay49
  rw [shapeCast_self]
  simp only [minimumf_apply, slice2_axis1_eq, addf_apply, h72, h74]
  rw [← pd_rowE_off, ← pd_rowE_off,
    pd_rowPart_two x (subRow g 1 a) l (512 * g.val) (512 * g.val + 256) (by omega) rfl (by omega) (by omega),
    c1 (by omega), c2 (by omega)]

/-- The last subtile, diagonal masked: the second half's rows against their own half's columns. -/
theorem pay51_spec (x : XT) (g : Fin 8) (v5 : FVec Ideal S512x1024 .bf16) (h5 : IsLhs x g v5) (v8 : FVec Ideal S512x1024 .bf16)
    (h8 : ∀ (a : Fin 512) (q : Fin 1024), v8 (ix2 a q) = m2 * x (ix2 (rowOf g a) q))
    (v16 : FVec Ideal S1x512 .f32) (h16 : IsNormFlat x g v16) (a : Fin 256) (l : Fin 128) :
    k0_pay51 (F := Ideal) v5 v8 v16 (ix2 a l) = rowPart x (subRow g 1 a) l (512 * g.val + 256) (512 * g.val + 512) := by
  have hl := l.isLt
  have hg := g.isLt
  have c1 : ∀ (h : 0 + l.val < 256) (b : 512 * g.val + 256 + l.val < 4096), (⟨512 * g.val + 256 + l.val, b⟩ : Fin 4096) = subRow g 1 ⟨0 + l.val, h⟩ :=
    fun h b => Fin.ext (by simp only [subRow]; have : ((1 : Fin 2) : ℕ) = 1 := rfl; omega)
  have c2 : ∀ (h : 128 + l.val < 256) (b : 512 * g.val + 256 + 128 + l.val < 4096), (⟨512 * g.val + 256 + 128 + l.val, b⟩ : Fin 4096) = subRow g 1 ⟨128 + l.val, h⟩ :=
    fun h b => Fin.ext (by simp only [subRow]; have : ((1 : Fin 2) : ℕ) = 1 := rfl; omega)
  unfold k0_pay51
  simp only [minimumf_apply, slice2_axis1_eq]
  rw [pd_tile11_apply x g v5 h5 v8 h8 v16 h16, pd_tile11_apply x g v5 h5 v8 h8 v16 h16,
    pd_rowPart_two x (subRow g 1 a) l (512 * g.val + 256) (512 * g.val + 512) (by omega) (by omega) (by omega) (by omega),
    c1 (by omega), c2 (by omega)]

theorem pd_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pd_pinf_eq_top : pinf = ⊤ := by simp [KoLeo.pinf, Ideal.ofBits, Ideal.ieee]

theorem pd_minReduce_rows_apply (src : FVec Ideal S256x256 .f32) (hφ : FKind.Formats .f32)
    (hacc : (0x7F800000#32 : BitVec 32) = 0x7F800000#32) (b : Fin 256) :
    multiReduction .minimumf [0] S256 src 0x7F800000#32 reduces_S256x256_S256 hφ hacc (ix1 b) = ⨅ a : Fin 256, src (ix2 a b) := by
  refine (multiReduction_minimumf_eq_fold src _ reduces_S256x256_S256 hφ hacc (ix1 b)).trans ?_
  refine (reduces_S256x256_S256.fold_filter_drop_single _ _ src (ix1 b)).trans ?_
  have hl : ∀ a : Fin 256, reduces_S256x256_S256.lift (ix1 b) a = ix2 a b := fun a => funext fun c => Fin.ext (by
    match c with
    | ⟨0, _⟩ => rfl
    | ⟨1, _⟩ => rfl)
  show (Finset.univ : Finset (Fin 256)).fold min pinf (fun a => src (reduces_S256x256_S256.lift (ix1 b) a)) = _
  rw [pd_pinf_eq_top]
  exact le_antisymm
    (le_iInf fun a => (Finset.fold_min_le _).mpr (Or.inr ⟨a, Finset.mem_univ _, le_of_eq (congrArg src (hl a))⟩))
    ((Finset.le_fold_min _).mpr ⟨le_top, fun a _ => (iInf_le (fun a : Fin 256 => src (ix2 a b)) a).trans (le_of_eq (congrArg src (hl a).symm))⟩)

theorem pd_colPart_hi (x : XT) (g : Fin 8) (c : Fin 4096) :
    colPart x c (512 * g.val + 256) (512 * g.val + 512) = ⨅ a : Fin 256, colE x (subRow g 1 a) c := by
  unfold colPart
  have hg := g.isLt
  have h1 : ((1 : Fin 2) : ℕ) = 1 := rfl
  apply le_antisymm
  · refine le_iInf fun a => ?_
    have ha := a.isLt
    exact iInf_le (fun r : {r : Fin 4096 // 512 * g.val + 256 ≤ r.val ∧ r.val < 512 * g.val + 512} => colE x r.1 c)
      ⟨subRow g 1 a, by simp only [subRow]; omega, by simp only [subRow]; omega⟩
  · refine le_iInf fun r => ?_
    obtain ⟨r, hr1, hr2⟩ := r
    have e : subRow g 1 ⟨r.val - (512 * g.val + 256), by omega⟩ = r := Fin.ext (by simp only [subRow]; omega)
    exact (iInf_le (fun a : Fin 256 => colE x (subRow g 1 a) c) ⟨r.val - (512 * g.val + 256), by omega⟩).trans (le_of_eq (by rw [e]))

/-- The first half's columns gain the second half's rows. -/
theorem pay50_spec (x : XT) (g : Fin 8) (v15 : FVec Ideal S512x1 .f32) (h15 : IsNormCol x g v15)
    (v72 : FVec Ideal S256x256 .f32) (h72 : ∀ a b : Fin 256, v72 (ix2 a b) = gp x (subRow g 1 a) (subRow g 0 b))
    (v92 : Vec Ideal S1x1x256 .f32) (b : Fin 256) :
    k0_pay50 (F := Ideal) v15 v72 v92 (ix3 (0 : Fin 1) (0 : Fin 1) b)
      = min (v92 (ix3 (0 : Fin 1) (0 : Fin 1) b)) (colPart x (subRow g 0 b) (512 * g.val + 256) (512 * g.val + 512)) := by
  have h15' : ∀ j : Fin 512, v15 (ix2 j (0 : Fin 1)) = sq x (rowOf g j) := h15
  unfold k0_pay50
  rw [shapeCast_self, minimumf_apply, shapeCast_ab_1ab_apply, shapeCast_a_1a_apply, pd_minReduce_rows_apply, pd_colPart_hi]
  refine congrArg (min _) (iInf_congr fun a => ?_)
  rw [addf_apply, pd_broadcastTo_a1_ab_apply, slice2_axis0_eq, h15', h72, pd_rowOf_hi]
  rfl

end Cert.KernelIdeal.Val

end
-- ==== Proof.StepLib.lean ====
import proofs.«141847_g74552042324289_cont_9to1_m_1244_12_alg».proof.Proof.KFacts
import proofs.«141847_g74552042324289_cont_9to1_m_1244_12_alg».proof.Proof.WritesAt
import proofs.«141847_g74552042324289_cont_9to1_m_1244_12_alg».proof.Proof.InvDefs
import proofs.«141847_g74552042324289_cont_9to1_m_1244_12_alg».proof.Proof.AccMath
import proofs.«141847_g74552042324289_cont_9to1_m_1244_12_alg».proof.Proof.PayPrep
import proofs.«141847_g74552042324289_cont_9to1_m_1244_12_alg».proof.Proof.PayTile
import proofs.«141847_g74552042324289_cont_9to1_m_1244_12_alg».proof.Proof.PayDiag
import Idealize.ShloMosaic.Lib.WritesUnit
import Idealize.ShloMosaic.Lib.WholeRead

set_option maxRecDepth 16384

noncomputable section

namespace Cert.KernelIdeal.Gen.StepLib

open Idealize.ShloMosaic Idealize.ShloMosaic.TcCoe Idealize.ShloMosaic.ValueIdx Idealize.ShloMosaic.Tactic
open Idealize.SL Idealize.SL.Sem
open Cert.KernelIdeal.Val KoLeo

theorem load_x0 (arg1 : Memref sig .tc .vmem S512x1024 .f32) (harg1 : arg1.IsWhole) (x0 : Vec Ideal S512x1024 .f32) :
    View.readAt (Elt Ideal) arg1.view (Rect.unit ![0, 0] S512x1024.size inb_S512x1024_S512x1024_0_0).toLoadRect (harg1.unread x0) = x0 := by
  funext y
  rw [harg1.readAt_unread]
  exact congrArg x0 (funext fun a => Fin.ext (by
    rw [LoadRect.idx_apply]
    match a with
    | ⟨0, _⟩ => exact (by simp : (0 : ℕ) + 1 * (y ⟨0, _⟩).val = (y ⟨0, _⟩).val)
    | ⟨1, _⟩ => exact (by simp : (0 : ℕ) + 1 * (y ⟨1, _⟩).val = (y ⟨1, _⟩).val)))

theorem fin_zero_add {n : ℕ} (q : Fin n) (h : 0 + q.val < n) : (⟨0 + q.val, h⟩ : Fin n) = q := Fin.ext (Nat.zero_add _)

variable (x : XT) (g : Fin 8)

/-- Rows of an earlier block lie outside this block's store, so a load of them still reads the scaled copy. -/
theorem scaled_tile (arg3 : Memref sig .tc .vmem S4096x1024 .bf16) (harg3 : arg3.IsWhole) (xs3 : Vec Ideal S4096x1024 .bf16)
    (hsc : ∀ (r : Fin 4096) (k : Fin 1024), r.val < 512 * g.val → xs3 (ix2 r k) = m2 * x (ix2 r k))
    (off0 : Fin 2 → ℕ) (hin0 : ∀ a, off0 a + S512x1024.size a ≤ S4096x1024.size a) (hoff0 : off0 = ![512 * g.val, 0])
    (w : (Rect.unit (s := S4096x1024) off0 S512x1024.size hin0).shape.Idx → Elt Ideal .bf16)
    (k : Fin 8) (hk : k.val < g.val) (off : Fin 2 → ℕ) (hin : ∀ a, off a + S512x1024.size a ≤ S4096x1024.size a)
    (h0 : off 0 = 512 * k.val) (h1 : off 1 = 0) :
    IsScaled x k (View.readAt (Elt Ideal) arg3.view (Rect.unit (s := S4096x1024) off S512x1024.size hin).toLoadRect
      (arg3.view.writes (Elt Ideal) (harg3.unread xs3) [⟨Rect.unit (s := S4096x1024) off0 S512x1024.size hin0, w⟩])) := by
  intro j q
  have hj := j.isLt
  rw [View.readAt_unit_ix2 arg3.view _ off hin j q (512 * k.val) 0 h0 h1]
  rw [View.read_writes_cons_unit_of_not_mem (s := S4096x1024) (size := S512x1024.size) _ _ hin0 _ _ _ hoff0 (0 : Fin 2)
    (Or.inl (by show 512 * k.val + j.val < 512 * g.val; omega))]
  show arg3.view.read (Elt Ideal) (harg3.unread xs3) _ = _
  rw [harg3.read_unread, hsc _ _ (by show 512 * k.val + j.val < 512 * g.val; omega), fin_zero_add]
  rfl

theorem normRow_tile (arg5 : Memref sig .tc .vmem S8x1x512 .f32) (harg5 : arg5.IsWhole) (xs5 : Vec Ideal S8x1x512 .f32)
    (hnr : ∀ (b : Fin 8) (j : Fin 512), b.val < g.val → xs5 (ix3 b (0 : Fin 1) j) = KoLeo.sq x (rowOf b j))
    (off0 : Fin 3 → ℕ) (hin0 : ∀ a, off0 a + S1x1x512.size a ≤ S8x1x512.size a) (hoff0 : off0 = ![g.val, 0, 0])
    (w : (Rect.unit (s := S8x1x512) off0 S1x1x512.size hin0).shape.Idx → Elt Ideal .f32)
    (k : Fin 8) (hk : k.val < g.val) (off : Fin 3 → ℕ) (hin : ∀ a, off a + S1x1x512.size a ≤ S8x1x512.size a)
    (h0 : off 0 = k.val) (h1 : off 1 = 0) (h2 : off 2 = 0) :
    IsNormRow x k (View.readAt (Elt Ideal) arg5.view (Rect.unit (s := S8x1x512) off S1x1x512.size hin).toLoadRect
      (arg5.view.writes (Elt Ideal) (harg5.unread xs5) [⟨Rect.unit (s := S8x1x512) off0 S1x1x512.size hin0, w⟩])) := by
  intro j
  rw [View.readAt_unit_ix3 arg5.view _ off hin (0 : Fin 1) (0 : Fin 1) j k.val 0 0 h0 h1 h2]
  rw [View.read_writes_cons_unit_of_not_mem (s := S8x1x512) (size := S1x1x512.size) _ _ hin0 _ _ _ hoff0 (0 : Fin 3)
    (Or.inl (by show k.val + 0 < g.val; omega))]
  show arg5.view.read (Elt Ideal) (harg5.unread xs5) _ = _
  rw [harg5.read_unread]
  have e : (ix3 (⟨k.val + ((0 : Fin 1) : ℕ), by have := k.isLt; show k.val + 0 < 8; omega⟩ : Fin 8) (⟨0 + ((0 : Fin 1) : ℕ), by decide⟩ : Fin 1) (⟨0 + j.val, by have := j.isLt; omega⟩ : Fin 512) : S8x1x512.Idx)
      = ix3 k (0 : Fin 1) j := by
    funext d; apply Fin.ext
    match d with
    | ⟨0, _⟩ => show k.val + 0 = k.val; omega
    | ⟨1, _⟩ => rfl
    | ⟨2, _⟩ => show 0 + j.val = j.val; omega
  exact (congrArg xs5 e).trans (hnr k j hk)

/-- One store on block `g`'s rows: entries below `512 (g + 1)` hold `-2 · x`. -/
theorem scaled_next (arg3 : Memref sig .tc .vmem S4096x1024 .bf16) (harg3 : arg3.IsWhole) (xs3 : Vec Ideal S4096x1024 .bf16)
    (hsc : ∀ (r : Fin 4096) (k : Fin 1024), r.val < 512 * g.val → xs3 (ix2 r k) = m2 * x (ix2 r k))
    (off : Fin 2 → ℕ) (hin : ∀ a, off a + S512x1024.size a ≤ S4096x1024.size a) (hoff : off = ![512 * g.val, 0])
    (w : Vec Ideal S512x1024 .bf16) (hw : IsScaled x g w) (r : Fin 4096) (k : Fin 1024) (hr : r.val < 512 * (g.val + 1)) :
    arg3.view.read (Elt Ideal) (arg3.view.writes (Elt Ideal) (harg3.unread xs3) [⟨Rect.unit (s := S4096x1024) off S512x1024.size hin, w⟩]) (ix2 r k)
      = m2 * x (ix2 r k) := by
  by_cases h : r.val < 512 * g.val
  · rw [View.read_writes_cons_unit_of_not_mem _ _ _ _ _ _ hoff (0 : Fin 2) (Or.inl h)]
    show arg3.view.read (Elt Ideal) (harg3.unread xs3) (ix2 r k) = _
    rw [harg3.read_unread]
    exact hsc r k h
  · rw [View.read_writes_cons_unit_of_mem _ _ _ _ _ _ (ix2 (⟨r.val - 512 * g.val, by omega⟩ : Fin 512) k) hoff
      (Fin.forall_fin_two.mpr ⟨by show r.val = 512 * g.val + (r.val - 512 * g.val); omega, by show k.val = 0 + k.val; omega⟩)]
    rw [hw]
    exact congrArg (fun t => m2 * x (ix2 t k)) (Fin.ext (by show 512 * g.val + (r.val - 512 * g.val) = r.val; omega))

theorem normCol_next (arg4 : Memref sig .tc .vmem S4096x1 .f32) (harg4 : arg4.IsWhole) (xs4 : Vec Ideal S4096x1 .f32)
    (hnc : ∀ (r : Fin 4096), r.val < 512 * g.val → xs4 (ix2 r (0 : Fin 1)) = KoLeo.sq x r)
    (off : Fin 2 → ℕ) (hin : ∀ a, off a + S512x1.size a ≤ S4096x1.size a) (hoff : off = ![512 * g.val, 0])
    (w : Vec Ideal S512x1 .f32) (hw : ∀ a : Fin 512, w (ix2 a (0 : Fin 1)) = KoLeo.sq x (rowOf g a)) (r : Fin 4096) (hr : r.val < 512 * (g.val + 1)) :
    arg4.view.read (Elt Ideal) (arg4.view.writes (Elt Ideal) (harg4.unread xs4) [⟨Rect.unit (s := S4096x1) off S512x1.size hin, w⟩]) (ix2 r (0 : Fin 1))
      = KoLeo.sq x r := by
  by_cases h : r.val < 512 * g.val
  · rw [View.read_writes_cons_unit_of_not_mem _ _ _ _ _ _ hoff (0 : Fin 2) (Or.inl h)]
    show arg4.view.read (Elt Ideal) (harg4.unread xs4) (ix2 r (0 : Fin 1)) = _
    rw [harg4.read_unread]
    exact hnc r h
  · rw [View.read_writes_cons_unit_of_mem _ _ _ _ _ _ (ix2 (⟨r.val - 512 * g.val, by omega⟩ : Fin 512) (0 : Fin 1)) hoff
      (Fin.forall_fin_two.mpr ⟨by show r.val = 512 * g.val + (r.val - 512 * g.val); omega, by show (0 : ℕ) = 0 + 0; omega⟩)]
    rw [hw]
    exact congrArg (fun t => KoLeo.sq x t) (Fin.ext (by show 512 * g.val + (r.val - 512 * g.val) = r.val; omega))

theorem normRow_next (arg5 : Memref sig .tc .vmem S8x1x512 .f32) (harg5 : arg5.IsWhole) (xs5 : Vec Ideal S8x1x512 .f32)
    (hnr : ∀ (b : Fin 8) (j : Fin 512), b.val < g.val → xs5 (ix3 b (0 : Fin 1) j) = KoLeo.sq x (rowOf b j))
    (off : Fin 3 → ℕ) (hin : ∀ a, off a + S1x1x512.size a ≤ S8x1x512.size a) (hoff : off = ![g.val, 0, 0])
    (w : Vec Ideal S1x1x512 .f32) (hw : IsNormRow x g w) (b : Fin 8) (j : Fin 512) (hb : b.val < g.val + 1) :
    arg5.view.read (Elt Ideal) (arg5.view.writes (Elt Ideal) (harg5.unread xs5) [⟨Rect.unit (s := S8x1x512) off S1x1x512.size hin, w⟩]) (ix3 b (0 : Fin 1) j)
      = KoLeo.sq x (rowOf b j) := by
  by_cases h : b.val < g.val
  · rw [View.read_writes_cons_unit_of_not_mem _ _ _ _ _ _ hoff (0 : Fin 3) (Or.inl h)]
    show arg5.view.read (Elt Ideal) (harg5.unread xs5) (ix3 b (0 : Fin 1) j) = _
    rw [harg5.read_unread]
    exact hnr b j h
  · have hbg : b = g := Fin.ext (by omega)
    subst hbg
    rw [View.read_writes_cons_unit_of_mem _ _ _ _ _ _ (ix3 (0 : Fin 1) (0 : Fin 1) j) hoff
      (fun a => by match a with | ⟨0, _⟩ => exact (Nat.add_zero _).symm | ⟨1, _⟩ => rfl | ⟨2, _⟩ => exact (Nat.zero_add _).symm)]
    exact hw j

/-- After the stores `L` over any prior contents, the rows of block `g` hold the row-side minimum over the columns below `512 n`, and the
    other rows are as they were. -/
def RowsUpTo (arg6 : Memref sig .tc .vmem S4096x128 .f32) (L : List (View.Piece (Elt Ideal) S4096x128 .f32)) (n : ℕ) : Prop :=
  ∀ (g6 : arg6.view.ty.Contents (Elt Ideal)) (r : Fin 4096) (l : Fin 128),
    arg6.view.read (Elt Ideal) (arg6.view.writes (Elt Ideal) g6 L) (ix2 r l)
      = if 512 * g.val ≤ r.val ∧ r.val < 512 * g.val + 512 then rowPart x r l 0 (512 * n) else arg6.view.read (Elt Ideal) g6 (ix2 r l)

/-- The tile against block 0: the rows start from `+∞`. -/
theorem rowsUpTo_base (arg6 : Memref sig .tc .vmem S4096x128 .f32) (harg6 : arg6.IsWhole) (xs6 : Vec Ideal S4096x128 .f32)
    (hacc : ∀ (r : Fin 4096) (l : Fin 128), xs6 (ix2 r l) = if r.val < 512 * g.val then rowPart x r l 0 (bandEnd r) else pinf)
    (off : Fin 2 → ℕ) (hin : ∀ a, off a + S512x128.size a ≤ S4096x128.size a) (hoff : off = ![512 * g.val, 0])
    (w : Vec Ideal S512x128 .f32)
    (hw : ∀ (a : Fin 512) (l : Fin 128), w (ix2 a l)
      = min (View.readAt (Elt Ideal) arg6.view (Rect.unit (s := S4096x128) off S512x128.size hin).toLoadRect (harg6.unread xs6) (ix2 a l))
          (rowPart x (rowOf g a) l (512 * 0) (512 * 0 + 512))) :
    RowsUpTo x g arg6 [⟨Rect.unit (s := S4096x128) off S512x128.size hin, w⟩] 1 := by
  intro g6 r l
  have hr' := r.isLt
  by_cases hr : 512 * g.val ≤ r.val ∧ r.val < 512 * g.val + 512
  · rw [if_pos hr, View.read_writes_cons_unit_of_mem (s := S4096x128) (size := S512x128.size) _ _ hin _ _ (ix2 r l) (ix2 (⟨r.val - 512 * g.val, by omega⟩ : Fin 512) l) hoff
      (Fin.forall_fin_two.mpr ⟨by show r.val = 512 * g.val + (r.val - 512 * g.val); omega, by show l.val = 0 + l.val; omega⟩)]
    rw [hw]
    rw [View.readAt_unit_ix2 arg6.view _ off hin _ _ (512 * g.val) 0 (by rw [hoff]; rfl) (by rw [hoff]; rfl), harg6.read_unread,
      hacc, if_neg (by show ¬ 512 * g.val + (r.val - 512 * g.val) < 512 * g.val; omega)]
    have e : rowOf g (⟨r.val - 512 * g.val, by omega⟩ : Fin 512) = r := Fin.ext (by show 512 * g.val + (r.val - 512 * g.val) = r.val; omega)
    rw [e, pinf_top, min_eq_right le_top]
  · rw [if_neg hr, View.read_writes_cons_unit_of_not_mem (s := S4096x128) (size := S512x128.size) _ _ hin _ _ (ix2 r l) hoff (0 : Fin 2)
      (by show r.val < 512 * g.val ∨ 512 * g.val + 512 ≤ r.val; omega)]
    rfl

/-- One more tile: the rows hold the minimum below `512 k` and the update adds block `k`. -/
theorem rowsUpTo_step (arg6 : Memref sig .tc .vmem S4096x128 .f32) (Lold : List (View.Piece (Elt Ideal) S4096x128 .f32))
    (k : ℕ)
    (off : Fin 2 → ℕ) (hin : ∀ a, off a + S512x128.size a ≤ S4096x128.size a) (hoff : off = ![512 * g.val, 0])
    (w : Vec Ideal S512x128 .f32)
    (hw : ∀ (a : Fin 512) (l : Fin 128), w (ix2 a l)
      = min (arg6.view.readCov Lold (Rect.unit (s := S4096x128) off S512x128.size hin).toLoadRect (ix2 a l))
          (rowPart x (rowOf g a) l (512 * k) (512 * k + 512)))
    (hold : RowsUpTo x g arg6 Lold k) :
    RowsUpTo x g arg6 (⟨Rect.unit (s := S4096x128) off S512x128.size hin, w⟩ :: Lold) (k + 1) := by
  intro g6 r l
  have hr' := r.isLt
  by_cases hr : 512 * g.val ≤ r.val ∧ r.val < 512 * g.val + 512
  · rw [if_pos hr, View.read_writes_cons_unit_of_mem (s := S4096x128) (size := S512x128.size) _ _ hin _ _ (ix2 r l) (ix2 (⟨r.val - 512 * g.val, by omega⟩ : Fin 512) l) hoff
      (Fin.forall_fin_two.mpr ⟨by show r.val = 512 * g.val + (r.val - 512 * g.val); omega, by show l.val = 0 + l.val; omega⟩)]
    rw [hw]
    have e : rowOf g (⟨r.val - 512 * g.val, by omega⟩ : Fin 512) = r := Fin.ext (by show 512 * g.val + (r.val - 512 * g.val) = r.val; omega)
    have e1 : (⟨512 * g.val + (r.val - 512 * g.val), by omega⟩ : Fin 4096) = r := Fin.ext (by show 512 * g.val + (r.val - 512 * g.val) = r.val; omega)
    have e2 : (⟨0 + l.val, by have := l.isLt; omega⟩ : Fin 128) = l := Fin.ext (by show 0 + l.val = l.val; omega)
    rw [View.readCov_unit_ix2 arg6.view Lold off hin _ _ (512 * g.val) 0 (by rw [hoff]; rfl) (by rw [hoff]; rfl), e1, e2,
      hold _ r l, if_pos hr, e, rowPart_split x r l (Nat.zero_le _) (Nat.le_add_right _ _), Nat.mul_succ]
  · rw [if_neg hr, View.read_writes_cons_unit_of_not_mem (s := S4096x128) (size := S512x128.size) _ _ hin _ _ (ix2 r l) hoff (0 : Fin 2)
      (by show r.val < 512 * g.val ∨ 512 * g.val + 512 ≤ r.val; omega), hold g6 r l, if_neg hr]

/-- The diagonal tile's three stores over the tiles' stores: the first half of the block gains the diagonal's first 256 columns, the second
    half both halves of them; rows of other blocks are as the invariant left them. -/
theorem rowAcc_next (arg6 : Memref sig .tc .vmem S4096x128 .f32) (harg6 : arg6.IsWhole) (xs6 : Vec Ideal S4096x128 .f32)
    (hacc : ∀ (r : Fin 4096) (l : Fin 128), xs6 (ix2 r l) = if r.val < 512 * g.val then rowPart x r l 0 (bandEnd r) else pinf)
    (TL : List (View.Piece (Elt Ideal) S4096x128 .f32))
    (off0 : Fin 2 → ℕ) (hin0 : ∀ a, off0 a + S256x128.size a ≤ S4096x128.size a) (hoff0 : off0 = ![512 * g.val, 0])
    (off1 : Fin 2 → ℕ) (hin1 : ∀ a, off1 a + S256x128.size a ≤ S4096x128.size a) (hoff1 : off1 = ![512 * g.val + 256, 0])
    (w0 : Vec Ideal S256x128 .f32)
    (hw0 : ∀ (a : Fin 256) (l : Fin 128), w0 (ix2 a l) = min (arg6.view.readCov TL (Rect.unit (s := S4096x128) off0 S256x128.size hin0).toLoadRect (ix2 a l))
      (rowPart x (subRow g 0 a) l (512 * g.val) (512 * g.val + 256)))
    (w1 : Vec Ideal S256x128 .f32)
    (hw1 : ∀ (a : Fin 256) (l : Fin 128), w1 (ix2 a l) = min (arg6.view.readCov (⟨Rect.unit (s := S4096x128) off0 S256x128.size hin0, w0⟩ :: TL) (Rect.unit (s := S4096x128) off1 S256x128.size hin1).toLoadRect (ix2 a l))
      (rowPart x (subRow g 1 a) l (512 * g.val) (512 * g.val + 256)))
    (w2 : Vec Ideal S256x128 .f32)
    (hw2 : ∀ (a : Fin 256) (l : Fin 128), w2 (ix2 a l)
      = min (arg6.view.readCov (⟨Rect.unit (s := S4096x128) off1 S256x128.size hin1, w1⟩ :: ⟨Rect.unit (s := S4096x128) off0 S256x128.size hin0, w0⟩ :: TL) (Rect.unit (s := S4096x128) off1 S256x128.size hin1).toLoadRect (ix2 a l))
        (rowPart x (subRow g 1 a) l (512 * g.val + 256) (512 * g.val + 512)))
    (r : Fin 4096) (l : Fin 128) (hTL : RowsUpTo x g arg6 TL g.val) :
    arg6.view.read (Elt Ideal) (arg6.view.writes (Elt Ideal) (harg6.unread xs6)
      (⟨Rect.unit (s := S4096x128) off1 S256x128.size hin1, w2⟩ :: ⟨Rect.unit (s := S4096x128) off1 S256x128.size hin1, w1⟩ :: ⟨Rect.unit (s := S4096x128) off0 S256x128.size hin0, w0⟩ :: TL)) (ix2 r l)
      = if r.val < 512 * (g.val + 1) then rowPart x r l 0 (bandEnd r) else pinf := by
  have hr' := r.isLt
  have e2 : (⟨0 + l.val, by have := l.isLt; omega⟩ : Fin 128) = l := Fin.ext (by show 0 + l.val = l.val; omega)
  by_cases hblk : 512 * g.val ≤ r.val ∧ r.val < 512 * g.val + 512
  · rw [if_pos (by omega)]
    by_cases hmid : r.val < 512 * g.val + 256
    · have hb : bandEnd r = 512 * g.val + 256 := by unfold bandEnd; omega
      have e : subRow g 0 (⟨r.val - 512 * g.val, by omega⟩ : Fin 256) = r :=
        Fin.ext (by show 512 * g.val + 256 * ((0 : Fin 2) : ℕ) + (r.val - 512 * g.val) = r.val; have : ((0 : Fin 2) : ℕ) = 0 := rfl; omega)
      have e1 : (⟨512 * g.val + (r.val - 512 * g.val), by omega⟩ : Fin 4096) = r := Fin.ext (by show 512 * g.val + (r.val - 512 * g.val) = r.val; omega)
      rw [hb, View.read_writes_cons_unit_of_not_mem (s := S4096x128) (size := S256x128.size) _ _ hin1 _ _ (ix2 r l) hoff1 (0 : Fin 2) (Or.inl hmid),
        View.read_writes_cons_unit_of_not_mem (s := S4096x128) (size := S256x128.size) _ _ hin1 _ _ (ix2 r l) hoff1 (0 : Fin 2) (Or.inl hmid),
        View.read_writes_cons_unit_of_mem (s := S4096x128) (size := S256x128.size) _ _ hin0 _ _ (ix2 r l) (ix2 (⟨r.val - 512 * g.val, by omega⟩ : Fin 256) l) hoff0
          (Fin.forall_fin_two.mpr ⟨by show r.val = 512 * g.val + (r.val - 512 * g.val); omega, by show l.val = 0 + l.val; omega⟩)]
      rw [hw0, View.readCov_unit_ix2 arg6.view TL off0 hin0 _ _ (512 * g.val) 0 (by rw [hoff0]; rfl) (by rw [hoff0]; rfl), e1, e2,
        hTL _ r l, if_pos hblk, e]
      exact rowPart_split x r l (Nat.zero_le _) (by omega)
    · have hb : bandEnd r = 512 * g.val + 512 := by unfold bandEnd; omega
      have hloc : ∀ a : Fin 2, ((ix2 r l : S4096x128.Idx) a).val
          = (![512 * g.val + 256, 0] : Fin 2 → ℕ) a + ((ix2 (⟨r.val - (512 * g.val + 256), by omega⟩ : Fin 256) l : S256x128.Idx) a).val :=
        Fin.forall_fin_two.mpr ⟨by show r.val = 512 * g.val + 256 + (r.val - (512 * g.val + 256)); omega, by show l.val = 0 + l.val; omega⟩
      have e : subRow g 1 (⟨r.val - (512 * g.val + 256), by omega⟩ : Fin 256) = r :=
        Fin.ext (by show 512 * g.val + 256 * ((1 : Fin 2) : ℕ) + (r.val - (512 * g.val + 256)) = r.val; have : ((1 : Fin 2) : ℕ) = 1 := rfl; omega)
      have e1 : (⟨512 * g.val + 256 + (r.val - (512 * g.val + 256)), by omega⟩ : Fin 4096) = r :=
        Fin.ext (by show 512 * g.val + 256 + (r.val - (512 * g.val + 256)) = r.val; omega)
      rw [hb, View.read_writes_cons_unit_of_mem (s := S4096x128) (size := S256x128.size) _ _ hin1 _ _ (ix2 r l) (ix2 (⟨r.val - (512 * g.val + 256), by omega⟩ : Fin 256) l) hoff1 hloc]
      rw [hw2, View.readCov_unit_ix2 arg6.view _ off1 hin1 _ _ (512 * g.val + 256) 0 (by rw [hoff1]; rfl) (by rw [hoff1]; rfl), e1, e2]
      rw [View.read_writes_cons_unit_of_mem (s := S4096x128) (size := S256x128.size) _ _ hin1 _ _ (ix2 r l) (ix2 (⟨r.val - (512 * g.val + 256), by omega⟩ : Fin 256) l) hoff1 hloc]
      rw [hw1, View.readCov_unit_ix2 arg6.view _ off1 hin1 _ _ (512 * g.val + 256) 0 (by rw [hoff1]; rfl) (by rw [hoff1]; rfl), e1, e2]
      rw [View.read_writes_cons_unit_of_not_mem (s := S4096x128) (size := S256x128.size) _ _ hin0 _ _ (ix2 r l) hoff0 (0 : Fin 2) (Or.inr (by show 512 * g.val + 256 ≤ r.val; omega)),
        hTL _ r l, if_pos hblk, e]
      rw [rowPart_split x r l (Nat.zero_le _) (by omega : 512 * g.val ≤ 512 * g.val + 256),
        rowPart_split x r l (Nat.zero_le _) (by omega : 512 * g.val + 256 ≤ 512 * g.val + 512)]
  · rw [View.read_writes_cons_unit_of_not_mem (s := S4096x128) (size := S256x128.size) _ _ hin1 _ _ (ix2 r l) hoff1 (0 : Fin 2)
        (by show r.val < 512 * g.val + 256 ∨ 512 * g.val + 256 + 256 ≤ r.val; omega),
      View.read_writes_cons_unit_of_not_mem (s := S4096x128) (size := S256x128.size) _ _ hin1 _ _ (ix2 r l) hoff1 (0 : Fin 2)
        (by show r.val < 512 * g.val + 256 ∨ 512 * g.val + 256 + 256 ≤ r.val; omega),
      View.read_writes_cons_unit_of_not_mem (s := S4096x128) (size := S256x128.size) _ _ hin0 _ _ (ix2 r l) hoff0 (0 : Fin 2)
        (by show r.val < 512 * g.val ∨ 512 * g.val + 256 ≤ r.val; omega),
      hTL _ r l, if_neg hblk, harg6.read_unread, hacc]
    by_cases h : r.val < 512 * g.val
    · rw [if_pos h, if_pos (by omega)]
    · rw [if_neg h, if_neg (by omega)]

/-- After the stores `CL` over what the column accumulator held, the first `n` blocks' columns have taken block `g`'s rows. -/
def ColsDone (arg7 : Memref sig .tc .vmem S8x1x512 .f32) (harg7 : arg7.IsWhole) (xs7 : Vec Ideal S8x1x512 .f32)
    (CL : List (View.Piece (Elt Ideal) S8x1x512 .f32)) (n : ℕ) : Prop :=
  ∀ (b : Fin 8) (j : Fin 512), arg7.view.read (Elt Ideal) (arg7.view.writes (Elt Ideal) (harg7.unread xs7) CL) (ix3 b (0 : Fin 1) j)
    = if b.val < n then colPart x (rowOf b j) (bandEnd (rowOf b j)) (512 * g.val + 512) else xs7 (ix3 b (0 : Fin 1) j)

theorem colsDone_nil (arg7 : Memref sig .tc .vmem S8x1x512 .f32) (harg7 : arg7.IsWhole) (xs7 : Vec Ideal S8x1x512 .f32) :
    ColsDone x g arg7 harg7 xs7 [] 0 := by
  intro b j
  show arg7.view.read (Elt Ideal) (harg7.unread xs7) _ = _
  rw [harg7.read_unread, if_neg (Nat.not_lt_zero _)]

theorem ix3_shift (b : Fin 8) (j : Fin 512) (h0 : b.val + ((0 : Fin 1) : ℕ) < 8) (h1 : 0 + ((0 : Fin 1) : ℕ) < 1) (h2 : 0 + j.val < 512) :
    (ix3 (⟨b.val + ((0 : Fin 1) : ℕ), h0⟩ : Fin 8) (⟨0 + ((0 : Fin 1) : ℕ), h1⟩ : Fin 1) (⟨0 + j.val, h2⟩ : Fin 512) : S8x1x512.Idx) = ix3 b (0 : Fin 1) j := by
  funext d; apply Fin.ext
  match d with
  | ⟨0, _⟩ => show b.val + 0 = b.val; omega
  | ⟨1, _⟩ => rfl
  | ⟨2, _⟩ => show 0 + j.val = j.val; omega

/-- Block `k`'s columns held their minima up to row `512 g`; the tile adds block `g`'s rows. -/
theorem colsDone_step (arg7 : Memref sig .tc .vmem S8x1x512 .f32) (harg7 : arg7.IsWhole) (xs7 : Vec Ideal S8x1x512 .f32)
    (hca : ∀ (b : Fin 8) (j : Fin 512), xs7 (ix3 b (0 : Fin 1) j) = colPart x (rowOf b j) (bandEnd (rowOf b j)) (512 * g.val))
    (CL : List (View.Piece (Elt Ideal) S8x1x512 .f32)) (k : Fin 8) (hk : k.val < g.val)
    (off : Fin 3 → ℕ) (hin : ∀ a, off a + S1x1x512.size a ≤ S8x1x512.size a) (hoff : off = ![k.val, 0, 0])
    (w : Vec Ideal S1x1x512 .f32)
    (hw : ∀ j : Fin 512, w (ix3 (0 : Fin 1) (0 : Fin 1) j)
      = min (View.readAt (Elt Ideal) arg7.view (Rect.unit (s := S8x1x512) off S1x1x512.size hin).toLoadRect (harg7.unread xs7) (ix3 (0 : Fin 1) (0 : Fin 1) j))
          (colPart x (rowOf k j) (512 * g.val) (512 * g.val + 512)))
    (hold : ColsDone x g arg7 harg7 xs7 CL k.val) :
    ColsDone x g arg7 harg7 xs7 (⟨Rect.unit (s := S8x1x512) off S1x1x512.size hin, w⟩ :: CL) (k.val + 1) := by
  intro b j
  have hj := j.isLt
  by_cases hb : b = k
  · subst hb
    rw [View.read_writes_cons_unit_of_mem (s := S8x1x512) (size := S1x1x512.size) _ _ hin _ _ (ix3 b (0 : Fin 1) j) (ix3 (0 : Fin 1) (0 : Fin 1) j) hoff
      (fun a => by match a with | ⟨0, _⟩ => exact (Nat.add_zero _).symm | ⟨1, _⟩ => rfl | ⟨2, _⟩ => exact (Nat.zero_add _).symm)]
    rw [hw, View.readAt_unit_ix3 arg7.view _ off hin (0 : Fin 1) (0 : Fin 1) j b.val 0 0 (by rw [hoff]; rfl) (by rw [hoff]; rfl) (by rw [hoff]; rfl),
      harg7.read_unread, ix3_shift, hca b j, if_pos (Nat.lt_succ_self _)]
    have hbe : bandEnd (rowOf b j) ≤ 512 * g.val := by
      unfold bandEnd rowOf
      show 256 * ((512 * b.val + j.val) / 256 + 1) ≤ 512 * g.val
      omega
    exact colPart_split x (rowOf b j) hbe (by omega)
  · have hbk : b.val ≠ k.val := fun h => hb (Fin.ext h)
    rw [View.read_writes_cons_unit_of_not_mem (s := S8x1x512) (size := S1x1x512.size) _ _ hin _ _ (ix3 b (0 : Fin 1) j) hoff (0 : Fin 3)
      (by show b.val < k.val ∨ k.val + 1 ≤ b.val; omega)]
    rw [hold b j]
    by_cases hlt : b.val < k.val
    · rw [if_pos hlt, if_pos (by omega)]
    · rw [if_neg hlt, if_neg (by omega)]

/-- The newest store: the first 256 columns of block `g` take the rows of its second half. -/
theorem colAcc_next (arg7 : Memref sig .tc .vmem S8x1x512 .f32) (harg7 : arg7.IsWhole) (xs7 : Vec Ideal S8x1x512 .f32)
    (hca : ∀ (b : Fin 8) (j : Fin 512), xs7 (ix3 b (0 : Fin 1) j) = colPart x (rowOf b j) (bandEnd (rowOf b j)) (512 * g.val))
    (CL : List (View.Piece (Elt Ideal) S8x1x512 .f32))
    (off : Fin 3 → ℕ) (hin : ∀ a, off a + S1x1x256.size a ≤ S8x1x512.size a) (hoff : off = ![g.val, 0, 0])
    (w : Vec Ideal S1x1x256 .f32)
    (hw : ∀ j : Fin 256, w (ix3 (0 : Fin 1) (0 : Fin 1) j)
      = min (View.readAt (Elt Ideal) arg7.view (Rect.unit (s := S8x1x512) off S1x1x256.size hin).toLoadRect
            (arg7.view.writes (Elt Ideal) (harg7.unread xs7) CL) (ix3 (0 : Fin 1) (0 : Fin 1) j))
          (colPart x (subRow g 0 j) (512 * g.val + 256) (512 * g.val + 512)))
    (b : Fin 8) (j : Fin 512) (hCL : ColsDone x g arg7 harg7 xs7 CL g.val) :
    arg7.view.read (Elt Ideal) (arg7.view.writes (Elt Ideal) (harg7.unread xs7)
      (⟨Rect.unit (s := S8x1x512) off S1x1x256.size hin, w⟩ :: CL)) (ix3 b (0 : Fin 1) j)
      = colPart x (rowOf b j) (bandEnd (rowOf b j)) (512 * (g.val + 1)) := by
  have hj := j.isLt
  have hb8 := b.isLt
  rw [Nat.mul_succ]
  by_cases hb : b.val < g.val
  · rw [View.read_writes_cons_unit_of_not_mem (s := S8x1x512) (size := S1x1x256.size) _ _ hin _ _ (ix3 b (0 : Fin 1) j) hoff (0 : Fin 3) (Or.inl hb),
      hCL b j, if_pos hb]
  · by_cases hbg : b = g
    · subst hbg
      by_cases hjlo : j.val < 256
      · rw [View.read_writes_cons_unit_of_mem (s := S8x1x512) (size := S1x1x256.size) _ _ hin _ _ (ix3 b (0 : Fin 1) j)
          (ix3 (0 : Fin 1) (0 : Fin 1) (⟨j.val, hjlo⟩ : Fin 256)) hoff
          (fun a => by match a with | ⟨0, _⟩ => exact (Nat.add_zero _).symm | ⟨1, _⟩ => rfl | ⟨2, _⟩ => exact (Nat.zero_add _).symm)]
        rw [hw, View.readAt_unit_ix3 arg7.view _ off hin (0 : Fin 1) (0 : Fin 1) (⟨j.val, hjlo⟩ : Fin 256) b.val 0 0 (by rw [hoff]; rfl) (by rw [hoff]; rfl) (by rw [hoff]; rfl)]
        rw [ix3_shift b j, hCL b j, if_neg (Nat.lt_irrefl _), hca]
        have hbe : bandEnd (rowOf b j) = 512 * b.val + 256 := by
          unfold bandEnd rowOf
          show 256 * ((512 * b.val + j.val) / 256 + 1) = 512 * b.val + 256
          omega
        have hsr : subRow b 0 (⟨j.val, hjlo⟩ : Fin 256) = rowOf b j :=
          Fin.ext (by show 512 * b.val + 256 * ((0 : Fin 2) : ℕ) + j.val = 512 * b.val + j.val; have : ((0 : Fin 2) : ℕ) = 0 := rfl; omega)
        rw [hbe, hsr, colPart_empty x _ (by omega : 512 * b.val ≤ 512 * b.val + 256), min_eq_right le_top]
      · rw [View.read_writes_cons_unit_of_not_mem (s := S8x1x512) (size := S1x1x256.size) _ _ hin _ _ (ix3 b (0 : Fin 1) j) hoff (2 : Fin 3)
          (Or.inr (by show 0 + 256 ≤ j.val; omega)), hCL b j, if_neg (Nat.lt_irrefl _), hca]
        have hbe : bandEnd (rowOf b j) = 512 * b.val + 512 := by
          unfold bandEnd rowOf
          show 256 * ((512 * b.val + j.val) / 256 + 1) = 512 * b.val + 512
          omega
        rw [hbe, colPart_empty x _ (by omega : 512 * b.val ≤ 512 * b.val + 512), colPart_empty x _ (le_refl _)]
    · have hbgt : g.val + 1 ≤ b.val := by
        have : b.val ≠ g.val := fun h => hbg (Fin.ext h)
        omega
      rw [View.read_writes_cons_unit_of_not_mem (s := S8x1x512) (size := S1x1x256.size) _ _ hin _ _ (ix3 b (0 : Fin 1) j) hoff (0 : Fin 3) (Or.inr hbgt),
        hCL b j, if_neg hb, hca]
      have hbe : 512 * g.val + 512 ≤ bandEnd (rowOf b j) := by
        unfold bandEnd rowOf
        show 512 * g.val + 512 ≤ 256 * ((512 * b.val + j.val) / 256 + 1)
        omega
      rw [colPart_empty x _ (by omega : 512 * g.val ≤ bandEnd (rowOf b j)), colPart_empty x _ hbe]

end Cert.KernelIdeal.Gen.StepLib

end
-- ==== Proof.StepA.lean ====
import proofs.«141847_g74552042324289_cont_9to1_m_1244_12_alg».proof.Proof.Run
import proofs.«141847_g74552042324289_cont_9to1_m_1244_12_alg».proof.Proof.StepLib

set_option maxRecDepth 16384

noncomputable section

namespace Cert.KernelIdeal.Gen

open Idealize.ShloMosaic Idealize.ShloMosaic.TcCoe Idealize.ShloMosaic.ValueIdx
open Idealize.SL Idealize.SL.Sem
open Cert.KernelIdeal.Val KoLeo

namespace StepA

theorem rowPart_congr (x : XT) {r r' : Fin 4096} {l l' : Fin 128} {lo lo' hi hi' : ℕ} (hr : r = r') (hl : l = l')
    (hlo : lo = lo') (hhi : hi = hi') : rowPart x r l lo hi = rowPart x r' l' lo' hi' := by
  subst hr hl hlo hhi; rfl

theorem colPart_congr (x : XT) {c c' : Fin 4096} {lo lo' hi hi' : ℕ} (hc : c = c') (hlo : lo = lo') (hhi : hi = hi') :
    colPart x c lo hi = colPart x c' lo' hi' := by
  subst hc hlo hhi; rfl

theorem min_pinf_left (y : EReal) : min pinf y = y := by
  rw [pinf_top]; exact min_eq_right le_top

end StepA

open StepA StepLib

/-- Point 0: the accumulators are filled with `+∞`, then only the diagonal tile runs. -/
theorem step_A (x : XT) (c : Dev nD) (i : grid0.Coords) (arg1 : Memref sig .tc .vmem S512x1024 .f32) (harg1 : arg1.IsWhole) (arg2 : Memref sig .tc .vmem S1x1 .f32) (harg2 : arg2.IsWhole) (arg3 : Memref sig .tc .vmem S4096x1024 .bf16) (harg3 : arg3.IsWhole) (arg4 : Memref sig .tc .vmem S4096x1 .f32) (harg4 : arg4.IsWhole) (arg5 : Memref sig .tc .vmem S8x1x512 .f32) (harg5 : arg5.IsWhole) (arg6 : Memref sig .tc .vmem S4096x128 .f32) (harg6 : arg6.IsWhole) (arg7 : Memref sig .tc .vmem S8x1x512 .f32) (harg7 : arg7.IsWhole) (arg8 : Memref sig .tc .vmem S8x512 .f32) (harg8 : arg8.IsWhole)
    (hg : (i 0).val = 0) (hI : condI i) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1) (h9 : ¬ k0_cond9 i = 1#1)
    (x0 : Vec Ideal S512x1024 .f32) (hx0 : IsBlock x ⟨0, by decide⟩ x0)
    (xs3 : Vec Ideal S4096x1024 .bf16) (xs4 : Vec Ideal S4096x1 .f32) (xs5 : Vec Ideal S8x1x512 .f32) (xs6 : Vec Ideal S4096x128 .f32) (xs7 : Vec Ideal S8x1x512 .f32) (xs8 : Vec Ideal S8x512 .f32)
    (f6 : arg6.view.ty.Contents (Elt Ideal)) (f7 : arg7.view.ty.Contents (Elt Ideal)) :
    Inv x 1
      (arg3.view.read (Elt Ideal) (arg3.view.writes (Elt Ideal) (harg3.unread xs3) (kernelRun0_A (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).1))
      (arg4.view.read (Elt Ideal) (arg4.view.writes (Elt Ideal) (harg4.unread xs4) (kernelRun0_A (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.1))
      (arg5.view.read (Elt Ideal) (arg5.view.writes (Elt Ideal) (harg5.unread xs5) (kernelRun0_A (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.1))
      (arg6.view.read (Elt Ideal) (arg6.view.writes (Elt Ideal) f6 (kernelRun0_A (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.1))
      (arg7.view.read (Elt Ideal) (arg7.view.writes (Elt Ideal) f7 (kernelRun0_A (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.2.1)) := by
  have ho1 : k0_off1 i = ![512 * 0, 0] := (k0_off1_eq i).trans (by rw [hg])
  have ho2 : k0_off2 i = ![512 * 0, 0] := (k0_off2_eq i).trans (by rw [hg])
  have ho3 : k0_off3 i = ![0, 0, 0] := (k0_off3_eq i).trans (by rw [hg])
  unfold kernelRun0_A; dsimp only; sl_unfold_run_names
  rw [load_x0 arg1 harg1 x0]
  refine ⟨fun r k hr => scaled_next x 0 arg3 harg3 xs3 (fun _ _ h => (Nat.not_lt_zero _ h).elim) _ _ ho1 _ (pay20_scaled x 0 x0 hx0) r k hr,
    fun r hr => normCol_next x 0 arg4 harg4 xs4 (fun _ h => (Nat.not_lt_zero _ h).elim) _ _ ho2 _ (pay23_col x 0 x0 hx0) r hr,
    fun b j hb => normRow_next x 0 arg5 harg5 xs5 (fun _ _ h => (Nat.not_lt_zero _ h).elim) _ _ ho3 _ (pay24_row x 0 x0 hx0) b j hb, ?_, ?_⟩
  ·
    intro r l
    have hoA : k0_off11 i 0#32 = ![0, 0] := (k0_off11_eq i ⟨0, by decide⟩).trans (by rw [hg]; first | done | rfl)
    have hoB : k0_off11 i 256#32 = ![256, 0] := (k0_off11_eq i ⟨1, by decide⟩).trans (by rw [hg]; first | done | rfl)
    have h5 := pay18_lhs x ⟨0, by decide⟩ x0 hx0
    have h8 := pay19_scaled x ⟨0, by decide⟩ x0 hx0
    have h16 := pay22_flat x ⟨0, by decide⟩ x0 hx0
    have h72 := pay47_spec x ⟨0, by decide⟩ _ h5 _ h8
    have h74 := pay48_spec x ⟨0, by decide⟩ _ h16
    have hfill : ∀ (f : arg6.view.ty.Contents (Elt Ideal))
        (hin : ∀ a, (![0, 0] : Fin 2 → ℕ) a + S4096x128.size a ≤ S4096x128.size a) (a : Fin 4096) (b : Fin 128),
        arg6.view.read (Elt Ideal) (arg6.view.writes (Elt Ideal) f
          [(⟨Rect.unit ![0, 0] S4096x128.size hin, k0_pay16 (F := Ideal)⟩ : View.Piece (Elt Ideal) S4096x128 .f32)]) (ix2 a b) = pinf := by
      intro f hin a b
      refine (View.read_writes_cons_unit_of_mem (off' := ![0, 0]) arg6.view f hin _ _ (ix2 a b) (ix2 a b) rfl (fun d => ?_)).trans
        (pay16_apply _)
      match d with
      | ⟨0, _⟩ => exact (Nat.zero_add _).symm
      | ⟨1, _⟩ => exact (Nat.zero_add _).symm
    by_cases hC : 512 ≤ r.val
    · rw [if_neg (by omega)]
      refine (View.read_writes_cons_unit_of_not_mem arg6.view f6 _ _ _ (ix2 r l) hoB (0 : Fin 2) (Or.inr ?_)).trans ?_
      · show 256 + 256 ≤ r.val; omega
      refine (View.read_writes_cons_unit_of_not_mem arg6.view f6 _ _ _ (ix2 r l) hoB (0 : Fin 2) (Or.inr ?_)).trans ?_
      · show 256 + 256 ≤ r.val; omega
      refine (View.read_writes_cons_unit_of_not_mem arg6.view f6 _ _ _ (ix2 r l) hoA (0 : Fin 2) (Or.inr ?_)).trans ?_
      · show 0 + 256 ≤ r.val; omega
      exact hfill f6 _ r l
    by_cases hA : r.val < 256
    · rw [if_pos (by omega)]
      refine (View.read_writes_cons_unit_of_not_mem arg6.view f6 _ _ _ (ix2 r l) hoB (0 : Fin 2) (Or.inl ?_)).trans ?_
      · show r.val < 256; exact hA
      refine (View.read_writes_cons_unit_of_not_mem arg6.view f6 _ _ _ (ix2 r l) hoB (0 : Fin 2) (Or.inl ?_)).trans ?_
      · show r.val < 256; exact hA
      refine (View.read_writes_cons_unit_of_mem arg6.view f6 _ _ _ (ix2 r l) (ix2 (⟨r.val, hA⟩ : Fin 256) l) hoA (fun d => ?_)).trans ?_
      · match d with
        | ⟨0, _⟩ => exact (Nat.zero_add _).symm
        | ⟨1, _⟩ => exact (Nat.zero_add _).symm
      refine (pay46_spec x ⟨0, by decide⟩ _ h5 _ h8 _ h16 _ _ _).trans ?_
      refine (congrArg₂ min ((View.readAt_unit_ix2 arg6.view _ (k0_off11 i 0#32) _ _ _ 0 0 (congrFun hoA 0) (congrFun hoA 1)).trans
        (hfill _ _ _ _)) rfl).trans ?_
      refine (min_pinf_left _).trans ?_
      exact rowPart_congr x (Fin.ext (by show 512 * 0 + 256 * 0 + r.val = r.val; omega)) rfl rfl
        (by show 512 * 0 + 256 = 256 * (r.val / 256 + 1); omega)
    · have hB' : r.val - 256 < 256 := by omega
      rw [if_pos (by omega)]
      refine (View.read_writes_cons_unit_of_mem arg6.view f6 _ _ _ (ix2 r l) (ix2 (⟨r.val - 256, hB'⟩ : Fin 256) l) hoB (fun d => ?_)).trans ?_
      · match d with
        | ⟨0, _⟩ => show r.val = 256 + (r.val - 256); omega
        | ⟨1, _⟩ => exact (Nat.zero_add _).symm
      refine (pay1_apply _ _ _).trans ?_
      refine (congrArg₂ min (?h : _ = rowPart x (subRow ⟨0, by decide⟩ 1 ⟨r.val - 256, hB'⟩) l 0 256)
        ((pay51_spec x ⟨0, by decide⟩ _ h5 _ h8 _ h16 _ _).trans
          (rowPart_congr x rfl rfl rfl rfl : _ = rowPart x (subRow ⟨0, by decide⟩ 1 ⟨r.val - 256, hB'⟩) l 256 512))).trans ?_
      case h =>
        refine (View.readCov_unit_ix2 arg6.view _ (k0_off11 i 256#32) _ _ _ 256 0 (congrFun hoB 0) (congrFun hoB 1)).trans ?_
        refine (View.read_writes_cons_unit_of_mem arg6.view _ _ _ _ _ (ix2 (⟨r.val - 256, hB'⟩ : Fin 256) l) hoB (fun d => ?_)).trans ?_
        · match d with
          | ⟨0, _⟩ => rfl
          | ⟨1, _⟩ => rfl
        refine (pay49_spec x ⟨0, by decide⟩ _ h72 _ h74 _ _ _).trans ?_
        refine (congrArg₂ min ?_ (rowPart_congr x rfl rfl rfl rfl)).trans (min_pinf_left _)
        refine (View.readAt_unit_ix2 arg6.view _ (k0_off11 i 256#32) _ _ _ 256 0 (congrFun hoB 0) (congrFun hoB 1)).trans ?_
        refine (View.read_writes_cons_unit_of_not_mem arg6.view _ _ _ _ _ hoA (0 : Fin 2) (Or.inr ?_)).trans (hfill _ _ _ _)
        show 0 + 256 ≤ 256 + (r.val - 256); omega
      refine (rowPart_split x _ l (Nat.zero_le 256) (by omega : 256 ≤ 512)).trans ?_
      exact rowPart_congr x (Fin.ext (by show 512 * 0 + 256 * 1 + (r.val - 256) = r.val; omega)) rfl rfl
        (by show 512 = 256 * (r.val / 256 + 1); omega)
  ·
    intro b j
    have hoC : k0_off12 i = ![0, 0, 0] := (k0_off12_eq i).trans (by rw [hg]; first | done | rfl)
    have h5 := pay18_lhs x ⟨0, by decide⟩ x0 hx0
    have h8 := pay19_scaled x ⟨0, by decide⟩ x0 hx0
    have h15 := pay21_col x ⟨0, by decide⟩ x0 hx0
    have h72 := pay47_spec x ⟨0, by decide⟩ _ h5 _ h8
    have hfill : ∀ (f : arg7.view.ty.Contents (Elt Ideal))
        (hin : ∀ a, (![0, 0, 0] : Fin 3 → ℕ) a + S8x1x512.size a ≤ S8x1x512.size a) (b : Fin 8) (u : Fin 1) (j : Fin 512),
        arg7.view.read (Elt Ideal) (arg7.view.writes (Elt Ideal) f
          [(⟨Rect.unit ![0, 0, 0] S8x1x512.size hin, k0_pay17 (F := Ideal)⟩ : View.Piece (Elt Ideal) S8x1x512 .f32)]) (ix3 b u j) = pinf := by
      intro f hin b u j
      refine (View.read_writes_cons_unit_of_mem (off' := ![0, 0, 0]) arg7.view f hin _ _ (ix3 b u j) (ix3 b u j) rfl (fun d => ?_)).trans
        (pay17_apply _)
      match d with
      | ⟨0, _⟩ => exact (Nat.zero_add _).symm
      | ⟨1, _⟩ => exact (Nat.zero_add _).symm
      | ⟨2, _⟩ => exact (Nat.zero_add _).symm
    by_cases hin2 : b.val = 0 ∧ j.val < 256
    · obtain ⟨hb, hj⟩ := hin2
      refine (View.read_writes_cons_unit_of_mem arg7.view f7 _ _ _ (ix3 b (0 : Fin 1) j)
        (ix3 (0 : Fin 1) (0 : Fin 1) (⟨j.val, hj⟩ : Fin 256)) hoC (fun d => ?_)).trans ?_
      · match d with
        | ⟨0, _⟩ => show b.val = 0 + 0; omega
        | ⟨1, _⟩ => rfl
        | ⟨2, _⟩ => exact (Nat.zero_add _).symm
      refine (pay50_spec x ⟨0, by decide⟩ _ h15 _ h72 _ _).trans ?_
      refine (congrArg₂ min ((View.readAt_unit_ix3 arg7.view _ (k0_off12 i) _ _ _ _ 0 0 0 (congrFun hoC 0) (congrFun hoC 1)
        (congrFun hoC 2)).trans (hfill _ _ _ _ _)) rfl).trans ?_
      refine (min_pinf_left _).trans ?_
      exact colPart_congr x (Fin.ext (by show 512 * 0 + 256 * 0 + j.val = 512 * b.val + j.val; omega))
        (by show 512 * 0 + 256 = 256 * ((512 * b.val + j.val) / 256 + 1); omega) rfl
    · have hnot : 1 ≤ b.val ∨ 256 ≤ j.val := by omega
      have hempty : colPart x (rowOf b j) (bandEnd (rowOf b j)) (512 * 1) = pinf := by
        rw [pinf_top]
        exact colPart_empty x _ (by show 512 * 1 ≤ 256 * ((512 * b.val + j.val) / 256 + 1); omega)
      rw [hempty]
      rcases hnot with hb | hj
      · refine (View.read_writes_cons_unit_of_not_mem arg7.view f7 _ _ _ (ix3 b (0 : Fin 1) j) hoC (0 : Fin 3) (Or.inr ?_)).trans ?_
        · show 0 + 1 ≤ b.val; omega
        exact hfill f7 _ b 0 j
      · refine (View.read_writes_cons_unit_of_not_mem arg7.view f7 _ _ _ (ix3 b (0 : Fin 1) j) hoC (2 : Fin 3) (Or.inr ?_)).trans ?_
        · show 0 + 256 ≤ j.val; omega
        exact hfill f7 _ b 0 j

end Cert.KernelIdeal.Gen

end
-- ==== Proof.StepB.lean ====
import proofs.«141847_g74552042324289_cont_9to1_m_1244_12_alg».proof.Proof.Run
import proofs.«141847_g74552042324289_cont_9to1_m_1244_12_alg».proof.Proof.StepLib

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.Sem
open Cert.KernelIdeal.Val KoLeo StepLib

/-- Grid point 1 keeps the invariant: each store of the run is one of the library's steps, the tiles in order, then the diagonal tile. -/
theorem step_B (x : XT) {c : Dev nD} {i : grid0.Coords} {arg1 : Memref sig .tc .vmem S512x1024 .f32} {harg1 : arg1.IsWhole} {arg2 : Memref sig .tc .vmem S1x1 .f32} {harg2 : arg2.IsWhole} {arg3 : Memref sig .tc .vmem S4096x1024 .bf16} {harg3 : arg3.IsWhole} {arg4 : Memref sig .tc .vmem S4096x1 .f32} {harg4 : arg4.IsWhole} {arg5 : Memref sig .tc .vmem S8x1x512 .f32} {harg5 : arg5.IsWhole} {arg6 : Memref sig .tc .vmem S4096x128 .f32} {harg6 : arg6.IsWhole} {arg7 : Memref sig .tc .vmem S8x1x512 .f32} {harg7 : arg7.IsWhole} {arg8 : Memref sig .tc .vmem S8x512 .f32} {harg8 : arg8.IsWhole}
    {hg : (i 0).val = 1} {hI : ¬ condI i} {h2 : k0_cond2 i = 1#1} {h3 : ¬ k0_cond3 i = 1#1} {h4 : ¬ k0_cond4 i = 1#1} {h5 : ¬ k0_cond5 i = 1#1} {h6 : ¬ k0_cond6 i = 1#1} {h7 : ¬ k0_cond7 i = 1#1} {h8 : ¬ k0_cond8 i = 1#1} {h9 : ¬ k0_cond9 i = 1#1}
    {x0 : Vec Ideal S512x1024 .f32} (hx0 : IsBlock x ⟨1, by decide⟩ x0)
    {xs3 : Vec Ideal S4096x1024 .bf16} {xs4 : Vec Ideal S4096x1 .f32} {xs5 : Vec Ideal S8x1x512 .f32} {xs6 : Vec Ideal S4096x128 .f32} {xs7 : Vec Ideal S8x1x512 .f32} {xs8 : Vec Ideal S8x512 .f32}
    (hinv : Inv x 1 xs3 xs4 xs5 xs6 xs7) :
    Inv x 2
      (arg3.view.read (Elt Ideal) (arg3.view.writes (Elt Ideal) (harg3.unread xs3) (kernelRun0_B (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).1))
      (arg4.view.read (Elt Ideal) (arg4.view.writes (Elt Ideal) (harg4.unread xs4) (kernelRun0_B (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.1))
      (arg5.view.read (Elt Ideal) (arg5.view.writes (Elt Ideal) (harg5.unread xs5) (kernelRun0_B (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.1))
      (arg6.view.read (Elt Ideal) (arg6.view.writes (Elt Ideal) (harg6.unread xs6) (kernelRun0_B (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.1))
      (arg7.view.read (Elt Ideal) (arg7.view.writes (Elt Ideal) (harg7.unread xs7) (kernelRun0_B (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.2.1)) := by
  have ho1 : k0_off1 i = ![512 * 1, 0] := (k0_off1_eq i).trans (by rw [hg])
  have ho2 : k0_off2 i = ![512 * 1, 0] := (k0_off2_eq i).trans (by rw [hg])
  have ho3 : k0_off3 i = ![1, 0, 0] := (k0_off3_eq i).trans (by rw [hg])
  have ho4 : k0_off4 i = ![512 * 1, 0] := (k0_off4_eq i).trans (by rw [hg])
  have ho11a : k0_off11 i 0#32 = ![512 * 1, 0] := (k0_off11_eq i ⟨0, by decide⟩).trans (by rw [hg]; rfl)
  have ho11b : k0_off11 i 256#32 = ![512 * 1 + 256, 0] := (k0_off11_eq i ⟨1, by decide⟩).trans (by rw [hg]; rfl)
  have ho12 : k0_off12 i = ![1, 0, 0] := (k0_off12_eq i).trans (by rw [hg])
  have h5 := pay18_lhs x 1 x0 hx0
  have h8 := pay19_scaled x 1 x0 hx0
  have h15 := pay21_col x 1 x0 hx0
  have h16 := pay22_flat x 1 x0 hx0
  have h72 := pay47_spec x 1 _ h5 _ h8
  have h74 := pay48_spec x 1 _ h16
  have hW3 := scaled_tile x 1 arg3 harg3 xs3 hinv.scaled (k0_off1 i) (k0_off1_inb i) ho1 (k0_pay20 (F := Ideal) x0)
  have hW5 := normRow_tile x 1 arg5 harg5 xs5 hinv.normRow (k0_off3 i) (k0_off3_inb i) ho3 (k0_pay24 (F := Ideal) x0)
  unfold kernelRun0_B
  dsimp only
  sl_unfold_run_names
  rw [load_x0 arg1 harg1 x0]
  refine ⟨fun r k hr => scaled_next x 1 arg3 harg3 xs3 hinv.scaled _ _ ho1 _ (pay20_scaled x 1 x0 hx0) r k hr,
    fun r hr => normCol_next x 1 arg4 harg4 xs4 hinv.normCol _ _ ho2 _ (pay23_col x 1 x0 hx0) r hr,
    fun b j hb => normRow_next x 1 arg5 harg5 xs5 hinv.normRow _ _ ho3 _ (pay24_row x 1 x0 hx0) b j hb, fun r l => ?_, fun b j => ?_⟩
  · refine rowAcc_next x 1 arg6 harg6 xs6 hinv.rowAcc _ _ _ ho11a _ _ ho11b _ (fun a l => pay46_spec x 1 _ h5 _ h8 _ h16 _ a l) _ (fun a l => pay49_spec x 1 _ h72 _ h74 _ a l) _
      (fun a l => (pay1_apply _ _ _).trans (congrArg _ (pay51_spec x 1 _ h5 _ h8 _ h16 a l))) r l ?_
    exact rowsUpTo_base x 1 arg6 harg6 xs6 hinv.rowAcc _ _ ho4 _ (fun a l => pay35_spec x 1 0 (by decide) _ h5 _ (hW3 0 (by decide) _ _ rfl rfl) _ (hW5 0 (by decide) _ _ rfl rfl rfl) _ a l)
  · refine colAcc_next x 1 arg7 harg7 xs7 hinv.colAcc _ _ _ ho12 _ (fun j => pay50_spec x 1 _ h15 _ h72 _ j) b j ?_
    refine colsDone_step x 1 arg7 harg7 xs7 hinv.colAcc _ 0 (by decide) _ _ rfl _ (fun j => pay36_spec x 1 0 (by decide) _ h5 _ h15 _ (hW3 0 (by decide) _ _ rfl rfl) _ j) ?_
    exact colsDone_nil x 1 arg7 harg7 xs7

end Cert.KernelIdeal.Gen

end
-- ==== Proof.StepC.lean ====
import proofs.«141847_g74552042324289_cont_9to1_m_1244_12_alg».proof.Proof.Run
import proofs.«141847_g74552042324289_cont_9to1_m_1244_12_alg».proof.Proof.StepLib

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.Sem
open Cert.KernelIdeal.Val KoLeo StepLib

/-- Grid point 2 keeps the invariant: each store of the run is one of the library's steps, the tiles in order, then the diagonal tile. -/
theorem step_C (x : XT) {c : Dev nD} {i : grid0.Coords} {arg1 : Memref sig .tc .vmem S512x1024 .f32} {harg1 : arg1.IsWhole} {arg2 : Memref sig .tc .vmem S1x1 .f32} {harg2 : arg2.IsWhole} {arg3 : Memref sig .tc .vmem S4096x1024 .bf16} {harg3 : arg3.IsWhole} {arg4 : Memref sig .tc .vmem S4096x1 .f32} {harg4 : arg4.IsWhole} {arg5 : Memref sig .tc .vmem S8x1x512 .f32} {harg5 : arg5.IsWhole} {arg6 : Memref sig .tc .vmem S4096x128 .f32} {harg6 : arg6.IsWhole} {arg7 : Memref sig .tc .vmem S8x1x512 .f32} {harg7 : arg7.IsWhole} {arg8 : Memref sig .tc .vmem S8x512 .f32} {harg8 : arg8.IsWhole}
    {hg : (i 0).val = 2} {hI : ¬ condI i} {h2 : k0_cond2 i = 1#1} {h3 : k0_cond3 i = 1#1} {h4 : ¬ k0_cond4 i = 1#1} {h5 : ¬ k0_cond5 i = 1#1} {h6 : ¬ k0_cond6 i = 1#1} {h7 : ¬ k0_cond7 i = 1#1} {h8 : ¬ k0_cond8 i = 1#1} {h9 : ¬ k0_cond9 i = 1#1}
    {x0 : Vec Ideal S512x1024 .f32} (hx0 : IsBlock x ⟨2, by decide⟩ x0)
    {xs3 : Vec Ideal S4096x1024 .bf16} {xs4 : Vec Ideal S4096x1 .f32} {xs5 : Vec Ideal S8x1x512 .f32} {xs6 : Vec Ideal S4096x128 .f32} {xs7 : Vec Ideal S8x1x512 .f32} {xs8 : Vec Ideal S8x512 .f32}
    (hinv : Inv x 2 xs3 xs4 xs5 xs6 xs7) :
    Inv x 3
      (arg3.view.read (Elt Ideal) (arg3.view.writes (Elt Ideal) (harg3.unread xs3) (kernelRun0_C (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).1))
      (arg4.view.read (Elt Ideal) (arg4.view.writes (Elt Ideal) (harg4.unread xs4) (kernelRun0_C (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.1))
      (arg5.view.read (Elt Ideal) (arg5.view.writes (Elt Ideal) (harg5.unread xs5) (kernelRun0_C (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.1))
      (arg6.view.read (Elt Ideal) (arg6.view.writes (Elt Ideal) (harg6.unread xs6) (kernelRun0_C (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.1))
      (arg7.view.read (Elt Ideal) (arg7.view.writes (Elt Ideal) (harg7.unread xs7) (kernelRun0_C (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.2.1)) := by
  have ho1 : k0_off1 i = ![512 * 2, 0] := (k0_off1_eq i).trans (by rw [hg])
  have ho2 : k0_off2 i = ![512 * 2, 0] := (k0_off2_eq i).trans (by rw [hg])
  have ho3 : k0_off3 i = ![2, 0, 0] := (k0_off3_eq i).trans (by rw [hg])
  have ho4 : k0_off4 i = ![512 * 2, 0] := (k0_off4_eq i).trans (by rw [hg])
  have ho5 : k0_off5 i = ![512 * 2, 0] := (k0_off5_eq i).trans (by rw [hg])
  have ho11a : k0_off11 i 0#32 = ![512 * 2, 0] := (k0_off11_eq i ⟨0, by decide⟩).trans (by rw [hg]; rfl)
  have ho11b : k0_off11 i 256#32 = ![512 * 2 + 256, 0] := (k0_off11_eq i ⟨1, by decide⟩).trans (by rw [hg]; rfl)
  have ho12 : k0_off12 i = ![2, 0, 0] := (k0_off12_eq i).trans (by rw [hg])
  have h5 := pay18_lhs x 2 x0 hx0
  have h8 := pay19_scaled x 2 x0 hx0
  have h15 := pay21_col x 2 x0 hx0
  have h16 := pay22_flat x 2 x0 hx0
  have h72 := pay47_spec x 2 _ h5 _ h8
  have h74 := pay48_spec x 2 _ h16
  have hW3 := scaled_tile x 2 arg3 harg3 xs3 hinv.scaled (k0_off1 i) (k0_off1_inb i) ho1 (k0_pay20 (F := Ideal) x0)
  have hW5 := normRow_tile x 2 arg5 harg5 xs5 hinv.normRow (k0_off3 i) (k0_off3_inb i) ho3 (k0_pay24 (F := Ideal) x0)
  unfold kernelRun0_C
  dsimp only
  sl_unfold_run_names
  rw [load_x0 arg1 harg1 x0]
  refine ⟨fun r k hr => scaled_next x 2 arg3 harg3 xs3 hinv.scaled _ _ ho1 _ (pay20_scaled x 2 x0 hx0) r k hr,
    fun r hr => normCol_next x 2 arg4 harg4 xs4 hinv.normCol _ _ ho2 _ (pay23_col x 2 x0 hx0) r hr,
    fun b j hb => normRow_next x 2 arg5 harg5 xs5 hinv.normRow _ _ ho3 _ (pay24_row x 2 x0 hx0) b j hb, fun r l => ?_, fun b j => ?_⟩
  · refine rowAcc_next x 2 arg6 harg6 xs6 hinv.rowAcc _ _ _ ho11a _ _ ho11b _ (fun a l => pay46_spec x 2 _ h5 _ h8 _ h16 _ a l) _ (fun a l => pay49_spec x 2 _ h72 _ h74 _ a l) _
      (fun a l => (pay1_apply _ _ _).trans (congrArg _ (pay51_spec x 2 _ h5 _ h8 _ h16 a l))) r l ?_
    refine rowsUpTo_step x 2 arg6 _ 1 _ _ ho5 _ (fun a l => pay35_spec x 2 1 (by decide) _ h5 _ (hW3 1 (by decide) _ _ rfl rfl) _ (hW5 1 (by decide) _ _ rfl rfl rfl) _ a l) ?_
    exact rowsUpTo_base x 2 arg6 harg6 xs6 hinv.rowAcc _ _ ho4 _ (fun a l => pay35_spec x 2 0 (by decide) _ h5 _ (hW3 0 (by decide) _ _ rfl rfl) _ (hW5 0 (by decide) _ _ rfl rfl rfl) _ a l)
  · refine colAcc_next x 2 arg7 harg7 xs7 hinv.colAcc _ _ _ ho12 _ (fun j => pay50_spec x 2 _ h15 _ h72 _ j) b j ?_
    refine colsDone_step x 2 arg7 harg7 xs7 hinv.colAcc _ 1 (by decide) _ _ rfl _ (fun j => pay36_spec x 2 1 (by decide) _ h5 _ h15 _ (hW3 1 (by decide) _ _ rfl rfl) _ j) ?_
    refine colsDone_step x 2 arg7 harg7 xs7 hinv.colAcc _ 0 (by decide) _ _ rfl _ (fun j => pay36_spec x 2 0 (by decide) _ h5 _ h15 _ (hW3 0 (by decide) _ _ rfl rfl) _ j) ?_
    exact colsDone_nil x 2 arg7 harg7 xs7

end Cert.KernelIdeal.Gen

end
-- ==== Proof.StepD.lean ====
import proofs.«141847_g74552042324289_cont_9to1_m_1244_12_alg».proof.Proof.Run
import proofs.«141847_g74552042324289_cont_9to1_m_1244_12_alg».proof.Proof.StepLib

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.Sem
open Cert.KernelIdeal.Val KoLeo StepLib

/-- Grid point 3 keeps the invariant: each store of the run is one of the library's steps, the tiles in order, then the diagonal tile. -/
theorem step_D (x : XT) {c : Dev nD} {i : grid0.Coords} {arg1 : Memref sig .tc .vmem S512x1024 .f32} {harg1 : arg1.IsWhole} {arg2 : Memref sig .tc .vmem S1x1 .f32} {harg2 : arg2.IsWhole} {arg3 : Memref sig .tc .vmem S4096x1024 .bf16} {harg3 : arg3.IsWhole} {arg4 : Memref sig .tc .vmem S4096x1 .f32} {harg4 : arg4.IsWhole} {arg5 : Memref sig .tc .vmem S8x1x512 .f32} {harg5 : arg5.IsWhole} {arg6 : Memref sig .tc .vmem S4096x128 .f32} {harg6 : arg6.IsWhole} {arg7 : Memref sig .tc .vmem S8x1x512 .f32} {harg7 : arg7.IsWhole} {arg8 : Memref sig .tc .vmem S8x512 .f32} {harg8 : arg8.IsWhole}
    {hg : (i 0).val = 3} {hI : ¬ condI i} {h2 : k0_cond2 i = 1#1} {h3 : k0_cond3 i = 1#1} {h4 : k0_cond4 i = 1#1} {h5 : ¬ k0_cond5 i = 1#1} {h6 : ¬ k0_cond6 i = 1#1} {h7 : ¬ k0_cond7 i = 1#1} {h8 : ¬ k0_cond8 i = 1#1} {h9 : ¬ k0_cond9 i = 1#1}
    {x0 : Vec Ideal S512x1024 .f32} (hx0 : IsBlock x ⟨3, by decide⟩ x0)
    {xs3 : Vec Ideal S4096x1024 .bf16} {xs4 : Vec Ideal S4096x1 .f32} {xs5 : Vec Ideal S8x1x512 .f32} {xs6 : Vec Ideal S4096x128 .f32} {xs7 : Vec Ideal S8x1x512 .f32} {xs8 : Vec Ideal S8x512 .f32}
    (hinv : Inv x 3 xs3 xs4 xs5 xs6 xs7) :
    Inv x 4
      (arg3.view.read (Elt Ideal) (arg3.view.writes (Elt Ideal) (harg3.unread xs3) (kernelRun0_D (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).1))
      (arg4.view.read (Elt Ideal) (arg4.view.writes (Elt Ideal) (harg4.unread xs4) (kernelRun0_D (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.1))
      (arg5.view.read (Elt Ideal) (arg5.view.writes (Elt Ideal) (harg5.unread xs5) (kernelRun0_D (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.1))
      (arg6.view.read (Elt Ideal) (arg6.view.writes (Elt Ideal) (harg6.unread xs6) (kernelRun0_D (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.1))
      (arg7.view.read (Elt Ideal) (arg7.view.writes (Elt Ideal) (harg7.unread xs7) (kernelRun0_D (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.2.1)) := by
  have ho1 : k0_off1 i = ![512 * 3, 0] := (k0_off1_eq i).trans (by rw [hg])
  have ho2 : k0_off2 i = ![512 * 3, 0] := (k0_off2_eq i).trans (by rw [hg])
  have ho3 : k0_off3 i = ![3, 0, 0] := (k0_off3_eq i).trans (by rw [hg])
  have ho4 : k0_off4 i = ![512 * 3, 0] := (k0_off4_eq i).trans (by rw [hg])
  have ho5 : k0_off5 i = ![512 * 3, 0] := (k0_off5_eq i).trans (by rw [hg])
  have ho6 : k0_off6 i = ![512 * 3, 0] := (k0_off6_eq i).trans (by rw [hg])
  have ho11a : k0_off11 i 0#32 = ![512 * 3, 0] := (k0_off11_eq i ⟨0, by decide⟩).trans (by rw [hg]; rfl)
  have ho11b : k0_off11 i 256#32 = ![512 * 3 + 256, 0] := (k0_off11_eq i ⟨1, by decide⟩).trans (by rw [hg]; rfl)
  have ho12 : k0_off12 i = ![3, 0, 0] := (k0_off12_eq i).trans (by rw [hg])
  have h5 := pay18_lhs x 3 x0 hx0
  have h8 := pay19_scaled x 3 x0 hx0
  have h15 := pay21_col x 3 x0 hx0
  have h16 := pay22_flat x 3 x0 hx0
  have h72 := pay47_spec x 3 _ h5 _ h8
  have h74 := pay48_spec x 3 _ h16
  have hW3 := scaled_tile x 3 arg3 harg3 xs3 hinv.scaled (k0_off1 i) (k0_off1_inb i) ho1 (k0_pay20 (F := Ideal) x0)
  have hW5 := normRow_tile x 3 arg5 harg5 xs5 hinv.normRow (k0_off3 i) (k0_off3_inb i) ho3 (k0_pay24 (F := Ideal) x0)
  unfold kernelRun0_D
  dsimp only
  sl_unfold_run_names
  rw [load_x0 arg1 harg1 x0]
  refine ⟨fun r k hr => scaled_next x 3 arg3 harg3 xs3 hinv.scaled _ _ ho1 _ (pay20_scaled x 3 x0 hx0) r k hr,
    fun r hr => normCol_next x 3 arg4 harg4 xs4 hinv.normCol _ _ ho2 _ (pay23_col x 3 x0 hx0) r hr,
    fun b j hb => normRow_next x 3 arg5 harg5 xs5 hinv.normRow _ _ ho3 _ (pay24_row x 3 x0 hx0) b j hb, fun r l => ?_, fun b j => ?_⟩
  · refine rowAcc_next x 3 arg6 harg6 xs6 hinv.rowAcc _ _ _ ho11a _ _ ho11b _ (fun a l => pay46_spec x 3 _ h5 _ h8 _ h16 _ a l) _ (fun a l => pay49_spec x 3 _ h72 _ h74 _ a l) _
      (fun a l => (pay1_apply _ _ _).trans (congrArg _ (pay51_spec x 3 _ h5 _ h8 _ h16 a l))) r l ?_
    refine rowsUpTo_step x 3 arg6 _ 2 _ _ ho6 _ (fun a l => pay35_spec x 3 2 (by decide) _ h5 _ (hW3 2 (by decide) _ _ rfl rfl) _ (hW5 2 (by decide) _ _ rfl rfl rfl) _ a l) ?_
    refine rowsUpTo_step x 3 arg6 _ 1 _ _ ho5 _ (fun a l => pay35_spec x 3 1 (by decide) _ h5 _ (hW3 1 (by decide) _ _ rfl rfl) _ (hW5 1 (by decide) _ _ rfl rfl rfl) _ a l) ?_
    exact rowsUpTo_base x 3 arg6 harg6 xs6 hinv.rowAcc _ _ ho4 _ (fun a l => pay35_spec x 3 0 (by decide) _ h5 _ (hW3 0 (by decide) _ _ rfl rfl) _ (hW5 0 (by decide) _ _ rfl rfl rfl) _ a l)
  · refine colAcc_next x 3 arg7 harg7 xs7 hinv.colAcc _ _ _ ho12 _ (fun j => pay50_spec x 3 _ h15 _ h72 _ j) b j ?_
    refine colsDone_step x 3 arg7 harg7 xs7 hinv.colAcc _ 2 (by decide) _ _ rfl _ (fun j => pay36_spec x 3 2 (by decide) _ h5 _ h15 _ (hW3 2 (by decide) _ _ rfl rfl) _ j) ?_
    refine colsDone_step x 3 arg7 harg7 xs7 hinv.colAcc _ 1 (by decide) _ _ rfl _ (fun j => pay36_spec x 3 1 (by decide) _ h5 _ h15 _ (hW3 1 (by decide) _ _ rfl rfl) _ j) ?_
    refine colsDone_step x 3 arg7 harg7 xs7 hinv.colAcc _ 0 (by decide) _ _ rfl _ (fun j => pay36_spec x 3 0 (by decide) _ h5 _ h15 _ (hW3 0 (by decide) _ _ rfl rfl) _ j) ?_
    exact colsDone_nil x 3 arg7 harg7 xs7

end Cert.KernelIdeal.Gen

end
-- ==== Proof.StepE.lean ====
import proofs.«141847_g74552042324289_cont_9to1_m_1244_12_alg».proof.Proof.Run
import proofs.«141847_g74552042324289_cont_9to1_m_1244_12_alg».proof.Proof.StepLib

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.Sem
open Cert.KernelIdeal.Val KoLeo StepLib

/-- Grid point 4 keeps the invariant: each store of the run is one of the library's steps, the tiles in order, then the diagonal tile. -/
theorem step_E (x : XT) {c : Dev nD} {i : grid0.Coords} {arg1 : Memref sig .tc .vmem S512x1024 .f32} {harg1 : arg1.IsWhole} {arg2 : Memref sig .tc .vmem S1x1 .f32} {harg2 : arg2.IsWhole} {arg3 : Memref sig .tc .vmem S4096x1024 .bf16} {harg3 : arg3.IsWhole} {arg4 : Memref sig .tc .vmem S4096x1 .f32} {harg4 : arg4.IsWhole} {arg5 : Memref sig .tc .vmem S8x1x512 .f32} {harg5 : arg5.IsWhole} {arg6 : Memref sig .tc .vmem S4096x128 .f32} {harg6 : arg6.IsWhole} {arg7 : Memref sig .tc .vmem S8x1x512 .f32} {harg7 : arg7.IsWhole} {arg8 : Memref sig .tc .vmem S8x512 .f32} {harg8 : arg8.IsWhole}
    {hg : (i 0).val = 4} {hI : ¬ condI i} {h2 : k0_cond2 i = 1#1} {h3 : k0_cond3 i = 1#1} {h4 : k0_cond4 i = 1#1} {h5 : k0_cond5 i = 1#1} {h6 : ¬ k0_cond6 i = 1#1} {h7 : ¬ k0_cond7 i = 1#1} {h8 : ¬ k0_cond8 i = 1#1} {h9 : ¬ k0_cond9 i = 1#1}
    {x0 : Vec Ideal S512x1024 .f32} (hx0 : IsBlock x ⟨4, by decide⟩ x0)
    {xs3 : Vec Ideal S4096x1024 .bf16} {xs4 : Vec Ideal S4096x1 .f32} {xs5 : Vec Ideal S8x1x512 .f32} {xs6 : Vec Ideal S4096x128 .f32} {xs7 : Vec Ideal S8x1x512 .f32} {xs8 : Vec Ideal S8x512 .f32}
    (hinv : Inv x 4 xs3 xs4 xs5 xs6 xs7) :
    Inv x 5
      (arg3.view.read (Elt Ideal) (arg3.view.writes (Elt Ideal) (harg3.unread xs3) (kernelRun0_E (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).1))
      (arg4.view.read (Elt Ideal) (arg4.view.writes (Elt Ideal) (harg4.unread xs4) (kernelRun0_E (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.1))
      (arg5.view.read (Elt Ideal) (arg5.view.writes (Elt Ideal) (harg5.unread xs5) (kernelRun0_E (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.1))
      (arg6.view.read (Elt Ideal) (arg6.view.writes (Elt Ideal) (harg6.unread xs6) (kernelRun0_E (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.1))
      (arg7.view.read (Elt Ideal) (arg7.view.writes (Elt Ideal) (harg7.unread xs7) (kernelRun0_E (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.2.1)) := by
  have ho1 : k0_off1 i = ![512 * 4, 0] := (k0_off1_eq i).trans (by rw [hg])
  have ho2 : k0_off2 i = ![512 * 4, 0] := (k0_off2_eq i).trans (by rw [hg])
  have ho3 : k0_off3 i = ![4, 0, 0] := (k0_off3_eq i).trans (by rw [hg])
  have ho4 : k0_off4 i = ![512 * 4, 0] := (k0_off4_eq i).trans (by rw [hg])
  have ho5 : k0_off5 i = ![512 * 4, 0] := (k0_off5_eq i).trans (by rw [hg])
  have ho6 : k0_off6 i = ![512 * 4, 0] := (k0_off6_eq i).trans (by rw [hg])
  have ho7 : k0_off7 i = ![512 * 4, 0] := (k0_off7_eq i).trans (by rw [hg])
  have ho11a : k0_off11 i 0#32 = ![512 * 4, 0] := (k0_off11_eq i ⟨0, by decide⟩).trans (by rw [hg]; rfl)
  have ho11b : k0_off11 i 256#32 = ![512 * 4 + 256, 0] := (k0_off11_eq i ⟨1, by decide⟩).trans (by rw [hg]; rfl)
  have ho12 : k0_off12 i = ![4, 0, 0] := (k0_off12_eq i).trans (by rw [hg])
  have h5 := pay18_lhs x 4 x0 hx0
  have h8 := pay19_scaled x 4 x0 hx0
  have h15 := pay21_col x 4 x0 hx0
  have h16 := pay22_flat x 4 x0 hx0
  have h72 := pay47_spec x 4 _ h5 _ h8
  have h74 := pay48_spec x 4 _ h16
  have hW3 := scaled_tile x 4 arg3 harg3 xs3 hinv.scaled (k0_off1 i) (k0_off1_inb i) ho1 (k0_pay20 (F := Ideal) x0)
  have hW5 := normRow_tile x 4 arg5 harg5 xs5 hinv.normRow (k0_off3 i) (k0_off3_inb i) ho3 (k0_pay24 (F := Ideal) x0)
  unfold kernelRun0_E
  dsimp only
  sl_unfold_run_names
  rw [load_x0 arg1 harg1 x0]
  refine ⟨fun r k hr => scaled_next x 4 arg3 harg3 xs3 hinv.scaled _ _ ho1 _ (pay20_scaled x 4 x0 hx0) r k hr,
    fun r hr => normCol_next x 4 arg4 harg4 xs4 hinv.normCol _ _ ho2 _ (pay23_col x 4 x0 hx0) r hr,
    fun b j hb => normRow_next x 4 arg5 harg5 xs5 hinv.normRow _ _ ho3 _ (pay24_row x 4 x0 hx0) b j hb, fun r l => ?_, fun b j => ?_⟩
  · refine rowAcc_next x 4 arg6 harg6 xs6 hinv.rowAcc _ _ _ ho11a _ _ ho11b _ (fun a l => pay46_spec x 4 _ h5 _ h8 _ h16 _ a l) _ (fun a l => pay49_spec x 4 _ h72 _ h74 _ a l) _
      (fun a l => (pay1_apply _ _ _).trans (congrArg _ (pay51_spec x 4 _ h5 _ h8 _ h16 a l))) r l ?_
    refine rowsUpTo_step x 4 arg6 _ 3 _ _ ho7 _ (fun a l => pay35_spec x 4 3 (by decide) _ h5 _ (hW3 3 (by decide) _ _ rfl rfl) _ (hW5 3 (by decide) _ _ rfl rfl rfl) _ a l) ?_
    refine rowsUpTo_step x 4 arg6 _ 2 _ _ ho6 _ (fun a l => pay35_spec x 4 2 (by decide) _ h5 _ (hW3 2 (by decide) _ _ rfl rfl) _ (hW5 2 (by decide) _ _ rfl rfl rfl) _ a l) ?_
    refine rowsUpTo_step x 4 arg6 _ 1 _ _ ho5 _ (fun a l => pay35_spec x 4 1 (by decide) _ h5 _ (hW3 1 (by decide) _ _ rfl rfl) _ (hW5 1 (by decide) _ _ rfl rfl rfl) _ a l) ?_
    exact rowsUpTo_base x 4 arg6 harg6 xs6 hinv.rowAcc _ _ ho4 _ (fun a l => pay35_spec x 4 0 (by decide) _ h5 _ (hW3 0 (by decide) _ _ rfl rfl) _ (hW5 0 (by decide) _ _ rfl rfl rfl) _ a l)
  · refine colAcc_next x 4 arg7 harg7 xs7 hinv.colAcc _ _ _ ho12 _ (fun j => pay50_spec x 4 _ h15 _ h72 _ j) b j ?_
    refine colsDone_step x 4 arg7 harg7 xs7 hinv.colAcc _ 3 (by decide) _ _ rfl _ (fun j => pay36_spec x 4 3 (by decide) _ h5 _ h15 _ (hW3 3 (by decide) _ _ rfl rfl) _ j) ?_
    refine colsDone_step x 4 arg7 harg7 xs7 hinv.colAcc _ 2 (by decide) _ _ rfl _ (fun j => pay36_spec x 4 2 (by decide) _ h5 _ h15 _ (hW3 2 (by decide) _ _ rfl rfl) _ j) ?_
    refine colsDone_step x 4 arg7 harg7 xs7 hinv.colAcc _ 1 (by decide) _ _ rfl _ (fun j => pay36_spec x 4 1 (by decide) _ h5 _ h15 _ (hW3 1 (by decide) _ _ rfl rfl) _ j) ?_
    refine colsDone_step x 4 arg7 harg7 xs7 hinv.colAcc _ 0 (by decide) _ _ rfl _ (fun j => pay36_spec x 4 0 (by decide) _ h5 _ h15 _ (hW3 0 (by decide) _ _ rfl rfl) _ j) ?_
    exact colsDone_nil x 4 arg7 harg7 xs7

end Cert.KernelIdeal.Gen

end
-- ==== Proof.StepF.lean ====
import proofs.«141847_g74552042324289_cont_9to1_m_1244_12_alg».proof.Proof.Run
import proofs.«141847_g74552042324289_cont_9to1_m_1244_12_alg».proof.Proof.StepLib

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.Sem
open Cert.KernelIdeal.Val KoLeo StepLib

/-- Grid point 5 keeps the invariant: each store of the run is one of the library's steps, the tiles in order, then the diagonal tile. -/
theorem step_F (x : XT) {c : Dev nD} {i : grid0.Coords} {arg1 : Memref sig .tc .vmem S512x1024 .f32} {harg1 : arg1.IsWhole} {arg2 : Memref sig .tc .vmem S1x1 .f32} {harg2 : arg2.IsWhole} {arg3 : Memref sig .tc .vmem S4096x1024 .bf16} {harg3 : arg3.IsWhole} {arg4 : Memref sig .tc .vmem S4096x1 .f32} {harg4 : arg4.IsWhole} {arg5 : Memref sig .tc .vmem S8x1x512 .f32} {harg5 : arg5.IsWhole} {arg6 : Memref sig .tc .vmem S4096x128 .f32} {harg6 : arg6.IsWhole} {arg7 : Memref sig .tc .vmem S8x1x512 .f32} {harg7 : arg7.IsWhole} {arg8 : Memref sig .tc .vmem S8x512 .f32} {harg8 : arg8.IsWhole}
    {hg : (i 0).val = 5} {hI : ¬ condI i} {h2 : k0_cond2 i = 1#1} {h3 : k0_cond3 i = 1#1} {h4 : k0_cond4 i = 1#1} {h5 : k0_cond5 i = 1#1} {h6 : k0_cond6 i = 1#1} {h7 : ¬ k0_cond7 i = 1#1} {h8 : ¬ k0_cond8 i = 1#1} {h9 : ¬ k0_cond9 i = 1#1}
    {x0 : Vec Ideal S512x1024 .f32} (hx0 : IsBlock x ⟨5, by decide⟩ x0)
    {xs3 : Vec Ideal S4096x1024 .bf16} {xs4 : Vec Ideal S4096x1 .f32} {xs5 : Vec Ideal S8x1x512 .f32} {xs6 : Vec Ideal S4096x128 .f32} {xs7 : Vec Ideal S8x1x512 .f32} {xs8 : Vec Ideal S8x512 .f32}
    (hinv : Inv x 5 xs3 xs4 xs5 xs6 xs7) :
    Inv x 6
      (arg3.view.read (Elt Ideal) (arg3.view.writes (Elt Ideal) (harg3.unread xs3) (kernelRun0_F (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).1))
      (arg4.view.read (Elt Ideal) (arg4.view.writes (Elt Ideal) (harg4.unread xs4) (kernelRun0_F (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.1))
      (arg5.view.read (Elt Ideal) (arg5.view.writes (Elt Ideal) (harg5.unread xs5) (kernelRun0_F (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.1))
      (arg6.view.read (Elt Ideal) (arg6.view.writes (Elt Ideal) (harg6.unread xs6) (kernelRun0_F (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.1))
      (arg7.view.read (Elt Ideal) (arg7.view.writes (Elt Ideal) (harg7.unread xs7) (kernelRun0_F (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.2.1)) := by
  have ho1 : k0_off1 i = ![512 * 5, 0] := (k0_off1_eq i).trans (by rw [hg])
  have ho2 : k0_off2 i = ![512 * 5, 0] := (k0_off2_eq i).trans (by rw [hg])
  have ho3 : k0_off3 i = ![5, 0, 0] := (k0_off3_eq i).trans (by rw [hg])
  have ho4 : k0_off4 i = ![512 * 5, 0] := (k0_off4_eq i).trans (by rw [hg])
  have ho5 : k0_off5 i = ![512 * 5, 0] := (k0_off5_eq i).trans (by rw [hg])
  have ho6 : k0_off6 i = ![512 * 5, 0] := (k0_off6_eq i).trans (by rw [hg])
  have ho7 : k0_off7 i = ![512 * 5, 0] := (k0_off7_eq i).trans (by rw [hg])
  have ho8 : k0_off8 i = ![512 * 5, 0] := (k0_off8_eq i).trans (by rw [hg])
  have ho11a : k0_off11 i 0#32 = ![512 * 5, 0] := (k0_off11_eq i ⟨0, by decide⟩).trans (by rw [hg]; rfl)
  have ho11b : k0_off11 i 256#32 = ![512 * 5 + 256, 0] := (k0_off11_eq i ⟨1, by decide⟩).trans (by rw [hg]; rfl)
  have ho12 : k0_off12 i = ![5, 0, 0] := (k0_off12_eq i).trans (by rw [hg])
  have h5 := pay18_lhs x 5 x0 hx0
  have h8 := pay19_scaled x 5 x0 hx0
  have h15 := pay21_col x 5 x0 hx0
  have h16 := pay22_flat x 5 x0 hx0
  have h72 := pay47_spec x 5 _ h5 _ h8
  have h74 := pay48_spec x 5 _ h16
  have hW3 := scaled_tile x 5 arg3 harg3 xs3 hinv.scaled (k0_off1 i) (k0_off1_inb i) ho1 (k0_pay20 (F := Ideal) x0)
  have hW5 := normRow_tile x 5 arg5 harg5 xs5 hinv.normRow (k0_off3 i) (k0_off3_inb i) ho3 (k0_pay24 (F := Ideal) x0)
  unfold kernelRun0_F
  dsimp only
  sl_unfold_run_names
  rw [load_x0 arg1 harg1 x0]
  refine ⟨fun r k hr => scaled_next x 5 arg3 harg3 xs3 hinv.scaled _ _ ho1 _ (pay20_scaled x 5 x0 hx0) r k hr,
    fun r hr => normCol_next x 5 arg4 harg4 xs4 hinv.normCol _ _ ho2 _ (pay23_col x 5 x0 hx0) r hr,
    fun b j hb => normRow_next x 5 arg5 harg5 xs5 hinv.normRow _ _ ho3 _ (pay24_row x 5 x0 hx0) b j hb, fun r l => ?_, fun b j => ?_⟩
  · refine rowAcc_next x 5 arg6 harg6 xs6 hinv.rowAcc _ _ _ ho11a _ _ ho11b _ (fun a l => pay46_spec x 5 _ h5 _ h8 _ h16 _ a l) _ (fun a l => pay49_spec x 5 _ h72 _ h74 _ a l) _
      (fun a l => (pay1_apply _ _ _).trans (congrArg _ (pay51_spec x 5 _ h5 _ h8 _ h16 a l))) r l ?_
    refine rowsUpTo_step x 5 arg6 _ 4 _ _ ho8 _ (fun a l => pay35_spec x 5 4 (by decide) _ h5 _ (hW3 4 (by decide) _ _ rfl rfl) _ (hW5 4 (by decide) _ _ rfl rfl rfl) _ a l) ?_
    refine rowsUpTo_step x 5 arg6 _ 3 _ _ ho7 _ (fun a l => pay35_spec x 5 3 (by decide) _ h5 _ (hW3 3 (by decide) _ _ rfl rfl) _ (hW5 3 (by decide) _ _ rfl rfl rfl) _ a l) ?_
    refine rowsUpTo_step x 5 arg6 _ 2 _ _ ho6 _ (fun a l => pay35_spec x 5 2 (by decide) _ h5 _ (hW3 2 (by decide) _ _ rfl rfl) _ (hW5 2 (by decide) _ _ rfl rfl rfl) _ a l) ?_
    refine rowsUpTo_step x 5 arg6 _ 1 _ _ ho5 _ (fun a l => pay35_spec x 5 1 (by decide) _ h5 _ (hW3 1 (by decide) _ _ rfl rfl) _ (hW5 1 (by decide) _ _ rfl rfl rfl) _ a l) ?_
    exact rowsUpTo_base x 5 arg6 harg6 xs6 hinv.rowAcc _ _ ho4 _ (fun a l => pay35_spec x 5 0 (by decide) _ h5 _ (hW3 0 (by decide) _ _ rfl rfl) _ (hW5 0 (by decide) _ _ rfl rfl rfl) _ a l)
  · refine colAcc_next x 5 arg7 harg7 xs7 hinv.colAcc _ _ _ ho12 _ (fun j => pay50_spec x 5 _ h15 _ h72 _ j) b j ?_
    refine colsDone_step x 5 arg7 harg7 xs7 hinv.colAcc _ 4 (by decide) _ _ rfl _ (fun j => pay36_spec x 5 4 (by decide) _ h5 _ h15 _ (hW3 4 (by decide) _ _ rfl rfl) _ j) ?_
    refine colsDone_step x 5 arg7 harg7 xs7 hinv.colAcc _ 3 (by decide) _ _ rfl _ (fun j => pay36_spec x 5 3 (by decide) _ h5 _ h15 _ (hW3 3 (by decide) _ _ rfl rfl) _ j) ?_
    refine colsDone_step x 5 arg7 harg7 xs7 hinv.colAcc _ 2 (by decide) _ _ rfl _ (fun j => pay36_spec x 5 2 (by decide) _ h5 _ h15 _ (hW3 2 (by decide) _ _ rfl rfl) _ j) ?_
    refine colsDone_step x 5 arg7 harg7 xs7 hinv.colAcc _ 1 (by decide) _ _ rfl _ (fun j => pay36_spec x 5 1 (by decide) _ h5 _ h15 _ (hW3 1 (by decide) _ _ rfl rfl) _ j) ?_
    refine colsDone_step x 5 arg7 harg7 xs7 hinv.colAcc _ 0 (by decide) _ _ rfl _ (fun j => pay36_spec x 5 0 (by decide) _ h5 _ h15 _ (hW3 0 (by decide) _ _ rfl rfl) _ j) ?_
    exact colsDone_nil x 5 arg7 harg7 xs7

end Cert.KernelIdeal.Gen

end
-- ==== Proof.StepG.lean ====
import proofs.«141847_g74552042324289_cont_9to1_m_1244_12_alg».proof.Proof.Run
import proofs.«141847_g74552042324289_cont_9to1_m_1244_12_alg».proof.Proof.StepLib

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.Sem
open Cert.KernelIdeal.Val KoLeo StepLib

/-- Grid point 6 keeps the invariant: each store of the run is one of the library's steps, the tiles in order, then the diagonal tile. -/
theorem step_G (x : XT) {c : Dev nD} {i : grid0.Coords} {arg1 : Memref sig .tc .vmem S512x1024 .f32} {harg1 : arg1.IsWhole} {arg2 : Memref sig .tc .vmem S1x1 .f32} {harg2 : arg2.IsWhole} {arg3 : Memref sig .tc .vmem S4096x1024 .bf16} {harg3 : arg3.IsWhole} {arg4 : Memref sig .tc .vmem S4096x1 .f32} {harg4 : arg4.IsWhole} {arg5 : Memref sig .tc .vmem S8x1x512 .f32} {harg5 : arg5.IsWhole} {arg6 : Memref sig .tc .vmem S4096x128 .f32} {harg6 : arg6.IsWhole} {arg7 : Memref sig .tc .vmem S8x1x512 .f32} {harg7 : arg7.IsWhole} {arg8 : Memref sig .tc .vmem S8x512 .f32} {harg8 : arg8.IsWhole}
    {hg : (i 0).val = 6} {hI : ¬ condI i} {h2 : k0_cond2 i = 1#1} {h3 : k0_cond3 i = 1#1} {h4 : k0_cond4 i = 1#1} {h5 : k0_cond5 i = 1#1} {h6 : k0_cond6 i = 1#1} {h7 : k0_cond7 i = 1#1} {h8 : ¬ k0_cond8 i = 1#1} {h9 : ¬ k0_cond9 i = 1#1}
    {x0 : Vec Ideal S512x1024 .f32} (hx0 : IsBlock x ⟨6, by decide⟩ x0)
    {xs3 : Vec Ideal S4096x1024 .bf16} {xs4 : Vec Ideal S4096x1 .f32} {xs5 : Vec Ideal S8x1x512 .f32} {xs6 : Vec Ideal S4096x128 .f32} {xs7 : Vec Ideal S8x1x512 .f32} {xs8 : Vec Ideal S8x512 .f32}
    (hinv : Inv x 6 xs3 xs4 xs5 xs6 xs7) :
    Inv x 7
      (arg3.view.read (Elt Ideal) (arg3.view.writes (Elt Ideal) (harg3.unread xs3) (kernelRun0_G (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).1))
      (arg4.view.read (Elt Ideal) (arg4.view.writes (Elt Ideal) (harg4.unread xs4) (kernelRun0_G (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.1))
      (arg5.view.read (Elt Ideal) (arg5.view.writes (Elt Ideal) (harg5.unread xs5) (kernelRun0_G (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.1))
      (arg6.view.read (Elt Ideal) (arg6.view.writes (Elt Ideal) (harg6.unread xs6) (kernelRun0_G (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.1))
      (arg7.view.read (Elt Ideal) (arg7.view.writes (Elt Ideal) (harg7.unread xs7) (kernelRun0_G (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.2.1)) := by
  have ho1 : k0_off1 i = ![512 * 6, 0] := (k0_off1_eq i).trans (by rw [hg])
  have ho2 : k0_off2 i = ![512 * 6, 0] := (k0_off2_eq i).trans (by rw [hg])
  have ho3 : k0_off3 i = ![6, 0, 0] := (k0_off3_eq i).trans (by rw [hg])
  have ho4 : k0_off4 i = ![512 * 6, 0] := (k0_off4_eq i).trans (by rw [hg])
  have ho5 : k0_off5 i = ![512 * 6, 0] := (k0_off5_eq i).trans (by rw [hg])
  have ho6 : k0_off6 i = ![512 * 6, 0] := (k0_off6_eq i).trans (by rw [hg])
  have ho7 : k0_off7 i = ![512 * 6, 0] := (k0_off7_eq i).trans (by rw [hg])
  have ho8 : k0_off8 i = ![512 * 6, 0] := (k0_off8_eq i).trans (by rw [hg])
  have ho9 : k0_off9 i = ![512 * 6, 0] := (k0_off9_eq i).trans (by rw [hg])
  have ho11a : k0_off11 i 0#32 = ![512 * 6, 0] := (k0_off11_eq i ⟨0, by decide⟩).trans (by rw [hg]; rfl)
  have ho11b : k0_off11 i 256#32 = ![512 * 6 + 256, 0] := (k0_off11_eq i ⟨1, by decide⟩).trans (by rw [hg]; rfl)
  have ho12 : k0_off12 i = ![6, 0, 0] := (k0_off12_eq i).trans (by rw [hg])
  have h5 := pay18_lhs x 6 x0 hx0
  have h8 := pay19_scaled x 6 x0 hx0
  have h15 := pay21_col x 6 x0 hx0
  have h16 := pay22_flat x 6 x0 hx0
  have h72 := pay47_spec x 6 _ h5 _ h8
  have h74 := pay48_spec x 6 _ h16
  have hW3 := scaled_tile x 6 arg3 harg3 xs3 hinv.scaled (k0_off1 i) (k0_off1_inb i) ho1 (k0_pay20 (F := Ideal) x0)
  have hW5 := normRow_tile x 6 arg5 harg5 xs5 hinv.normRow (k0_off3 i) (k0_off3_inb i) ho3 (k0_pay24 (F := Ideal) x0)
  unfold kernelRun0_G
  dsimp only
  sl_unfold_run_names
  rw [load_x0 arg1 harg1 x0]
  refine ⟨fun r k hr => scaled_next x 6 arg3 harg3 xs3 hinv.scaled _ _ ho1 _ (pay20_scaled x 6 x0 hx0) r k hr,
    fun r hr => normCol_next x 6 arg4 harg4 xs4 hinv.normCol _ _ ho2 _ (pay23_col x 6 x0 hx0) r hr,
    fun b j hb => normRow_next x 6 arg5 harg5 xs5 hinv.normRow _ _ ho3 _ (pay24_row x 6 x0 hx0) b j hb, fun r l => ?_, fun b j => ?_⟩
  · refine rowAcc_next x 6 arg6 harg6 xs6 hinv.rowAcc _ _ _ ho11a _ _ ho11b _ (fun a l => pay46_spec x 6 _ h5 _ h8 _ h16 _ a l) _ (fun a l => pay49_spec x 6 _ h72 _ h74 _ a l) _
      (fun a l => (pay1_apply _ _ _).trans (congrArg _ (pay51_spec x 6 _ h5 _ h8 _ h16 a l))) r l ?_
    refine rowsUpTo_step x 6 arg6 _ 5 _ _ ho9 _ (fun a l => pay35_spec x 6 5 (by decide) _ h5 _ (hW3 5 (by decide) _ _ rfl rfl) _ (hW5 5 (by decide) _ _ rfl rfl rfl) _ a l) ?_
    refine rowsUpTo_step x 6 arg6 _ 4 _ _ ho8 _ (fun a l => pay35_spec x 6 4 (by decide) _ h5 _ (hW3 4 (by decide) _ _ rfl rfl) _ (hW5 4 (by decide) _ _ rfl rfl rfl) _ a l) ?_
    refine rowsUpTo_step x 6 arg6 _ 3 _ _ ho7 _ (fun a l => pay35_spec x 6 3 (by decide) _ h5 _ (hW3 3 (by decide) _ _ rfl rfl) _ (hW5 3 (by decide) _ _ rfl rfl rfl) _ a l) ?_
    refine rowsUpTo_step x 6 arg6 _ 2 _ _ ho6 _ (fun a l => pay35_spec x 6 2 (by decide) _ h5 _ (hW3 2 (by decide) _ _ rfl rfl) _ (hW5 2 (by decide) _ _ rfl rfl rfl) _ a l) ?_
    refine rowsUpTo_step x 6 arg6 _ 1 _ _ ho5 _ (fun a l => pay35_spec x 6 1 (by decide) _ h5 _ (hW3 1 (by decide) _ _ rfl rfl) _ (hW5 1 (by decide) _ _ rfl rfl rfl) _ a l) ?_
    exact rowsUpTo_base x 6 arg6 harg6 xs6 hinv.rowAcc _ _ ho4 _ (fun a l => pay35_spec x 6 0 (by decide) _ h5 _ (hW3 0 (by decide) _ _ rfl rfl) _ (hW5 0 (by decide) _ _ rfl rfl rfl) _ a l)
  · refine colAcc_next x 6 arg7 harg7 xs7 hinv.colAcc _ _ _ ho12 _ (fun j => pay50_spec x 6 _ h15 _ h72 _ j) b j ?_
    refine colsDone_step x 6 arg7 harg7 xs7 hinv.colAcc _ 5 (by decide) _ _ rfl _ (fun j => pay36_spec x 6 5 (by decide) _ h5 _ h15 _ (hW3 5 (by decide) _ _ rfl rfl) _ j) ?_
    refine colsDone_step x 6 arg7 harg7 xs7 hinv.colAcc _ 4 (by decide) _ _ rfl _ (fun j => pay36_spec x 6 4 (by decide) _ h5 _ h15 _ (hW3 4 (by decide) _ _ rfl rfl) _ j) ?_
    refine colsDone_step x 6 arg7 harg7 xs7 hinv.colAcc _ 3 (by decide) _ _ rfl _ (fun j => pay36_spec x 6 3 (by decide) _ h5 _ h15 _ (hW3 3 (by decide) _ _ rfl rfl) _ j) ?_
    refine colsDone_step x 6 arg7 harg7 xs7 hinv.colAcc _ 2 (by decide) _ _ rfl _ (fun j => pay36_spec x 6 2 (by decide) _ h5 _ h15 _ (hW3 2 (by decide) _ _ rfl rfl) _ j) ?_
    refine colsDone_step x 6 arg7 harg7 xs7 hinv.colAcc _ 1 (by decide) _ _ rfl _ (fun j => pay36_spec x 6 1 (by decide) _ h5 _ h15 _ (hW3 1 (by decide) _ _ rfl rfl) _ j) ?_
    refine colsDone_step x 6 arg7 harg7 xs7 hinv.colAcc _ 0 (by decide) _ _ rfl _ (fun j => pay36_spec x 6 0 (by decide) _ h5 _ h15 _ (hW3 0 (by decide) _ _ rfl rfl) _ j) ?_
    exact colsDone_nil x 6 arg7 harg7 xs7

end Cert.KernelIdeal.Gen

end
-- ==== Proof.StepH.lean ====
import proofs.«141847_g74552042324289_cont_9to1_m_1244_12_alg».proof.Proof.Run
import proofs.«141847_g74552042324289_cont_9to1_m_1244_12_alg».proof.Proof.StepLib

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.Sem
open Cert.KernelIdeal.Val KoLeo StepLib

/-- Grid point 7 keeps the invariant: each store of the run is one of the library's steps, the tiles in order, then the diagonal tile. -/
theorem step_H (x : XT) {c : Dev nD} {i : grid0.Coords} {arg1 : Memref sig .tc .vmem S512x1024 .f32} {harg1 : arg1.IsWhole} {arg2 : Memref sig .tc .vmem S1x1 .f32} {harg2 : arg2.IsWhole} {arg3 : Memref sig .tc .vmem S4096x1024 .bf16} {harg3 : arg3.IsWhole} {arg4 : Memref sig .tc .vmem S4096x1 .f32} {harg4 : arg4.IsWhole} {arg5 : Memref sig .tc .vmem S8x1x512 .f32} {harg5 : arg5.IsWhole} {arg6 : Memref sig .tc .vmem S4096x128 .f32} {harg6 : arg6.IsWhole} {arg7 : Memref sig .tc .vmem S8x1x512 .f32} {harg7 : arg7.IsWhole} {arg8 : Memref sig .tc .vmem S8x512 .f32} {harg8 : arg8.IsWhole}
    {hg : (i 0).val = 7} {hI : ¬ condI i} {h2 : k0_cond2 i = 1#1} {h3 : k0_cond3 i = 1#1} {h4 : k0_cond4 i = 1#1} {h5 : k0_cond5 i = 1#1} {h6 : k0_cond6 i = 1#1} {h7 : k0_cond7 i = 1#1} {h8 : k0_cond8 i = 1#1} {h9 : k0_cond9 i = 1#1}
    {x0 : Vec Ideal S512x1024 .f32} (hx0 : IsBlock x ⟨7, by decide⟩ x0)
    {xs3 : Vec Ideal S4096x1024 .bf16} {xs4 : Vec Ideal S4096x1 .f32} {xs5 : Vec Ideal S8x1x512 .f32} {xs6 : Vec Ideal S4096x128 .f32} {xs7 : Vec Ideal S8x1x512 .f32} {xs8 : Vec Ideal S8x512 .f32}
    (hinv : Inv x 7 xs3 xs4 xs5 xs6 xs7) :
    Inv x 8
      (arg3.view.read (Elt Ideal) (arg3.view.writes (Elt Ideal) (harg3.unread xs3) (kernelRun0_H (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.1))
      (arg4.view.read (Elt Ideal) (arg4.view.writes (Elt Ideal) (harg4.unread xs4) (kernelRun0_H (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.1))
      (arg5.view.read (Elt Ideal) (arg5.view.writes (Elt Ideal) (harg5.unread xs5) (kernelRun0_H (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.1))
      (arg6.view.read (Elt Ideal) (arg6.view.writes (Elt Ideal) (harg6.unread xs6) (kernelRun0_H (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.2.1))
      (arg7.view.read (Elt Ideal) (arg7.view.writes (Elt Ideal) (harg7.unread xs7) (kernelRun0_H (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).2.2.2.2.2.1)) := by
  have ho1 : k0_off1 i = ![512 * 7, 0] := (k0_off1_eq i).trans (by rw [hg])
  have ho2 : k0_off2 i = ![512 * 7, 0] := (k0_off2_eq i).trans (by rw [hg])
  have ho3 : k0_off3 i = ![7, 0, 0] := (k0_off3_eq i).trans (by rw [hg])
  have ho4 : k0_off4 i = ![512 * 7, 0] := (k0_off4_eq i).trans (by rw [hg])
  have ho5 : k0_off5 i = ![512 * 7, 0] := (k0_off5_eq i).trans (by rw [hg])
  have ho6 : k0_off6 i = ![512 * 7, 0] := (k0_off6_eq i).trans (by rw [hg])
  have ho7 : k0_off7 i = ![512 * 7, 0] := (k0_off7_eq i).trans (by rw [hg])
  have ho8 : k0_off8 i = ![512 * 7, 0] := (k0_off8_eq i).trans (by rw [hg])
  have ho9 : k0_off9 i = ![512 * 7, 0] := (k0_off9_eq i).trans (by rw [hg])
  have ho10 : k0_off10 i = ![512 * 7, 0] := (k0_off10_eq i).trans (by rw [hg])
  have ho11a : k0_off11 i 0#32 = ![512 * 7, 0] := (k0_off11_eq i ⟨0, by decide⟩).trans (by rw [hg]; rfl)
  have ho11b : k0_off11 i 256#32 = ![512 * 7 + 256, 0] := (k0_off11_eq i ⟨1, by decide⟩).trans (by rw [hg]; rfl)
  have ho12 : k0_off12 i = ![7, 0, 0] := (k0_off12_eq i).trans (by rw [hg])
  have h5 := pay18_lhs x 7 x0 hx0
  have h8 := pay19_scaled x 7 x0 hx0
  have h15 := pay21_col x 7 x0 hx0
  have h16 := pay22_flat x 7 x0 hx0
  have h72 := pay47_spec x 7 _ h5 _ h8
  have h74 := pay48_spec x 7 _ h16
  have hW3 := scaled_tile x 7 arg3 harg3 xs3 hinv.scaled (k0_off1 i) (k0_off1_inb i) ho1 (k0_pay20 (F := Ideal) x0)
  have hW5 := normRow_tile x 7 arg5 harg5 xs5 hinv.normRow (k0_off3 i) (k0_off3_inb i) ho3 (k0_pay24 (F := Ideal) x0)
  unfold kernelRun0_H
  dsimp only
  sl_unfold_run_names
  rw [load_x0 arg1 harg1 x0]
  refine ⟨fun r k hr => scaled_next x 7 arg3 harg3 xs3 hinv.scaled _ _ ho1 _ (pay20_scaled x 7 x0 hx0) r k hr,
    fun r hr => normCol_next x 7 arg4 harg4 xs4 hinv.normCol _ _ ho2 _ (pay23_col x 7 x0 hx0) r hr,
    fun b j hb => normRow_next x 7 arg5 harg5 xs5 hinv.normRow _ _ ho3 _ (pay24_row x 7 x0 hx0) b j hb, fun r l => ?_, fun b j => ?_⟩
  · refine rowAcc_next x 7 arg6 harg6 xs6 hinv.rowAcc _ _ _ ho11a _ _ ho11b _ (fun a l => pay46_spec x 7 _ h5 _ h8 _ h16 _ a l) _ (fun a l => pay49_spec x 7 _ h72 _ h74 _ a l) _
      (fun a l => (pay1_apply _ _ _).trans (congrArg _ (pay51_spec x 7 _ h5 _ h8 _ h16 a l))) r l ?_
    refine rowsUpTo_step x 7 arg6 _ 6 _ _ ho10 _ (fun a l => pay35_spec x 7 6 (by decide) _ h5 _ (hW3 6 (by decide) _ _ rfl rfl) _ (hW5 6 (by decide) _ _ rfl rfl rfl) _ a l) ?_
    refine rowsUpTo_step x 7 arg6 _ 5 _ _ ho9 _ (fun a l => pay35_spec x 7 5 (by decide) _ h5 _ (hW3 5 (by decide) _ _ rfl rfl) _ (hW5 5 (by decide) _ _ rfl rfl rfl) _ a l) ?_
    refine rowsUpTo_step x 7 arg6 _ 4 _ _ ho8 _ (fun a l => pay35_spec x 7 4 (by decide) _ h5 _ (hW3 4 (by decide) _ _ rfl rfl) _ (hW5 4 (by decide) _ _ rfl rfl rfl) _ a l) ?_
    refine rowsUpTo_step x 7 arg6 _ 3 _ _ ho7 _ (fun a l => pay35_spec x 7 3 (by decide) _ h5 _ (hW3 3 (by decide) _ _ rfl rfl) _ (hW5 3 (by decide) _ _ rfl rfl rfl) _ a l) ?_
    refine rowsUpTo_step x 7 arg6 _ 2 _ _ ho6 _ (fun a l => pay35_spec x 7 2 (by decide) _ h5 _ (hW3 2 (by decide) _ _ rfl rfl) _ (hW5 2 (by decide) _ _ rfl rfl rfl) _ a l) ?_
    refine rowsUpTo_step x 7 arg6 _ 1 _ _ ho5 _ (fun a l => pay35_spec x 7 1 (by decide) _ h5 _ (hW3 1 (by decide) _ _ rfl rfl) _ (hW5 1 (by decide) _ _ rfl rfl rfl) _ a l) ?_
    exact rowsUpTo_base x 7 arg6 harg6 xs6 hinv.rowAcc _ _ ho4 _ (fun a l => pay35_spec x 7 0 (by decide) _ h5 _ (hW3 0 (by decide) _ _ rfl rfl) _ (hW5 0 (by decide) _ _ rfl rfl rfl) _ a l)
  · refine colAcc_next x 7 arg7 harg7 xs7 hinv.colAcc _ _ _ ho12 _ (fun j => pay50_spec x 7 _ h15 _ h72 _ j) b j ?_
    refine colsDone_step x 7 arg7 harg7 xs7 hinv.colAcc _ 6 (by decide) _ _ rfl _ (fun j => pay36_spec x 7 6 (by decide) _ h5 _ h15 _ (hW3 6 (by decide) _ _ rfl rfl) _ j) ?_
    refine colsDone_step x 7 arg7 harg7 xs7 hinv.colAcc _ 5 (by decide) _ _ rfl _ (fun j => pay36_spec x 7 5 (by decide) _ h5 _ h15 _ (hW3 5 (by decide) _ _ rfl rfl) _ j) ?_
    refine colsDone_step x 7 arg7 harg7 xs7 hinv.colAcc _ 4 (by decide) _ _ rfl _ (fun j => pay36_spec x 7 4 (by decide) _ h5 _ h15 _ (hW3 4 (by decide) _ _ rfl rfl) _ j) ?_
    refine colsDone_step x 7 arg7 harg7 xs7 hinv.colAcc _ 3 (by decide) _ _ rfl _ (fun j => pay36_spec x 7 3 (by decide) _ h5 _ h15 _ (hW3 3 (by decide) _ _ rfl rfl) _ j) ?_
    refine colsDone_step x 7 arg7 harg7 xs7 hinv.colAcc _ 2 (by decide) _ _ rfl _ (fun j => pay36_spec x 7 2 (by decide) _ h5 _ h15 _ (hW3 2 (by decide) _ _ rfl rfl) _ j) ?_
    refine colsDone_step x 7 arg7 harg7 xs7 hinv.colAcc _ 1 (by decide) _ _ rfl _ (fun j => pay36_spec x 7 1 (by decide) _ h5 _ h15 _ (hW3 1 (by decide) _ _ rfl rfl) _ j) ?_
    refine colsDone_step x 7 arg7 harg7 xs7 hinv.colAcc _ 0 (by decide) _ _ rfl _ (fun j => pay36_spec x 7 0 (by decide) _ h5 _ h15 _ (hW3 0 (by decide) _ _ rfl rfl) _ j) ?_
    exact colsDone_nil x 7 arg7 harg7 xs7

end Cert.KernelIdeal.Gen

end
-- ==== Proof.PayFin.lean ====
import proofs.«141847_g74552042324289_cont_9to1_m_1244_12_alg».proof.Proof.Gen.KernelIdeal.Skeleton
import proofs.«141847_g74552042324289_cont_9to1_m_1244_12_alg».proof.Proof.InvDefs
import Idealize.ShloMosaic.Lib.ValueLayout
import Idealize.ShloMosaic.PureOps.Ideal.Laws
import Mathlib.Data.Fintype.Lattice

noncomputable section

namespace Cert.KernelIdeal.Val

open Idealize.ShloMosaic Idealize.ShloMosaic.ValueIdx Cert.KernelIdeal Cert.KernelIdeal.Gen KoLeo
open scoped BigOperators

def rowFull (v127 : Vec Ideal S4096x128 .f32) (v130 : Vec Ideal S4096x1 .f32) (r : Fin 4096) : EReal :=
  (⨅ l : Fin 128, v127 (ix2 r l)) + v130 (ix2 r (0 : Fin 1))

def md2Of (rowp colacc norm : EReal) : EReal := max (min rowp (colacc + norm)) z0

private theorem pinf_eq_top : Ideal.ofBits .f32 0x7F800000#32 = (⊤ : EReal) := by
  simp [Ideal.ofBits, Ideal.ieee]

private theorem fold_min_top_eq_iInf {n : ℕ} (f : Fin n → EReal) :
    (Finset.univ : Finset (Fin n)).fold min ⊤ f = ⨅ k, f k := by
  rw [← Finset.inf_univ_eq_iInf]
  rfl

private theorem shapeCast_a1_1a_apply {α : Type} {a : ℕ} (x : (⟨2, ![a, 1]⟩ : Shape).Idx → α)
    (h : (⟨2, ![a, 1]⟩ : Shape).ShapeCasts ⟨2, ![1, a]⟩) (u : Fin 1) (j : Fin a) :
    shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.zero_mul, Nat.zero_add, Nat.mul_one, Nat.add_zero])

private theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

private theorem laneMin_apply (v127 : Vec Ideal S4096x128 .f32) (h : S4096x128.Reduces [1] S4096)
    (hφ : FKind.Formats .f32) (hacc : (0x7F800000#32 : BitVec 32) = FKind.minimumf.neutral .f32 hφ) (r : Fin 4096) :
    multiReduction (F := Ideal) .minimumf [1] S4096 v127 0x7F800000#32 h hφ hacc (ix1 r) = ⨅ l : Fin 128, v127 (ix2 r l) := by
  rw [multiReduction_minimumf_eq_fold]
  refine (h.fold_filter_drop_single _ _ v127 (ix1 r)).trans ?_
  have hf : (fun l : Fin 128 => (v127 (h.lift (ix1 r) l) : EReal)) = fun l : Fin 128 => v127 (ix2 r l) :=
    funext fun l => congrArg v127 (funext fun c => Fin.ext (by
      match c with
      | ⟨0, _⟩ => rfl
      | ⟨1, _⟩ => rfl))
  have e : (Finset.univ : Finset (Fin 128)).fold min (Ideal.ofBits .f32 0x7F800000#32)
      (fun l : Fin 128 => (v127 (ix2 r l) : EReal)) = ⨅ l : Fin 128, v127 (ix2 r l) := by
    rw [pinf_eq_top]; exact fold_min_top_eq_iInf _
  refine Eq.trans ?_ e
  exact congrArg (fun f : Fin 128 → EReal => (Finset.univ : Finset (Fin 128)).fold min (Ideal.ofBits .f32 0x7F800000#32) f) hf

theorem pay4_apply (v127 : Vec Ideal S4096x128 .f32) (v130 : Vec Ideal S4096x1 .f32) (r : Fin 4096) :
    k0_pay4 (F := Ideal) v127 v130 (ix2 r (0 : Fin 1)) = rowFull v127 v130 r := by
  unfold k0_pay4 rowFull
  rw [addf_apply]
  refine congrArg (· + v130 (ix2 r (0 : Fin 1))) ?_
  refine (shapeCast_a_a1_apply _ _ r (0 : Fin 1)).trans ?_
  exact laneMin_apply v127 _ _ _ r

private theorem blockRow_apply (v : FVec Ideal S4096x1 .f32) (o : ℕ) (hs : S4096x1.Slices ![o, 0] S512x1)
    (hc : S512x1.ShapeCasts S1x512) (j : Fin 512) (k : Fin 4096) (hk : k.val = o + j.val) :
    shapeCast S1x512 (extractStridedSlice S512x1 ![o, 0] v hs) hc (ix2 (0 : Fin 1) j) = v (ix2 k (0 : Fin 1)) :=
  (shapeCast_a1_1a_apply _ hc (0 : Fin 1) j).trans (slice2_axis0_apply o v hs j (0 : Fin 1) k hk)

private theorem md2_core (rowp : FVec Ideal S1x512 .f32) (ca nm : Vec Ideal S1x1x512 .f32)
    (hc : S1x1x512.ShapeCasts S1x512) (j : Fin 512) :
    maximumf (minimumf rowp (addf (shapeCast S1x512 ca hc) (shapeCast S1x512 nm hc)))
        (broadcast S1x512 (Scalar.ofBits (F := Ideal) .f32 0x00000000#32)) (ix2 (0 : Fin 1) j)
      = md2Of (rowp (ix2 (0 : Fin 1) j)) (ca (ix3 (0 : Fin 1) (0 : Fin 1) j)) (nm (ix3 (0 : Fin 1) (0 : Fin 1) j)) := by
  rw [maximumf_apply, minimumf_apply, addf_apply, broadcast_apply, shapeCast_1ab_ab_apply, shapeCast_1ab_ab_apply]
  rfl

private theorem md2_pattern (rowp : FVec Ideal S1x512 .f32) (ca nm : Vec Ideal S1x1x512 .f32)
    (hc : S1x1x512.ShapeCasts S1x512) (hc' : S1x512.ShapeCasts S1x512) (j : Fin 512) :
    shapeCast S1x512 (maximumf (minimumf rowp (addf (shapeCast S1x512 ca hc) (shapeCast S1x512 nm hc)))
        (broadcast S1x512 (Scalar.ofBits (F := Ideal) .f32 0x00000000#32))) hc' (ix2 (0 : Fin 1) j)
      = md2Of (rowp (ix2 (0 : Fin 1) j)) (ca (ix3 (0 : Fin 1) (0 : Fin 1) j)) (nm (ix3 (0 : Fin 1) (0 : Fin 1) j)) := by
  rw [shapeCast_self, maximumf_apply, minimumf_apply, addf_apply, broadcast_apply,
    shapeCast_1ab_ab_apply, shapeCast_1ab_ab_apply]
  rfl

theorem pay5_apply (v127 : Vec Ideal S4096x128 .f32) (v130 : Vec Ideal S4096x1 .f32) (v134 v136 : Vec Ideal S1x1x512 .f32)
    (j : Fin 512) :
    k0_pay5 (F := Ideal) v127 v130 v134 v136 (ix2 (0 : Fin 1) j)
      = md2Of (rowFull v127 v130 (rowOf 0 j)) (v134 (ix3 (0 : Fin 1) (0 : Fin 1) j)) (v136 (ix3 (0 : Fin 1) (0 : Fin 1) j)) := by
  unfold k0_pay5
  refine (md2_pattern _ v134 v136 _ _ j).trans ?_
  rw [blockRow_apply _ 0 _ _ j (rowOf 0 j) (by show 512 * 0 + j.val = 0 + j.val; omega), pay4_apply]

theorem pay6_apply (v127 : Vec Ideal S4096x128 .f32) (v130 : Vec Ideal S4096x1 .f32) (v147 v149 : Vec Ideal S1x1x512 .f32)
    (j : Fin 512) :
    k0_pay6 (F := Ideal) v127 v130 v147 v149 (ix2 (0 : Fin 1) j)
      = md2Of (rowFull v127 v130 (rowOf 1 j)) (v147 (ix3 (0 : Fin 1) (0 : Fin 1) j)) (v149 (ix3 (0 : Fin 1) (0 : Fin 1) j)) := by
  unfold k0_pay6
  refine (md2_pattern _ v147 v149 _ _ j).trans ?_
  rw [blockRow_apply _ 512 _ _ j (rowOf 1 j) (by show 512 * 1 + j.val = 512 + j.val; omega), pay4_apply]

theorem pay7_apply (v127 : Vec Ideal S4096x128 .f32) (v130 : Vec Ideal S4096x1 .f32) (j : Fin 512) :
    k0_pay7 (F := Ideal) v127 v130 (ix2 (0 : Fin 1) j) = rowFull v127 v130 (rowOf 2 j) := by
  unfold k0_pay7
  refine (blockRow_apply _ 1024 _ _ j (rowOf 2 j) (by show 512 * 2 + j.val = 1024 + j.val; omega)).trans ?_
  exact pay4_apply v127 v130 (rowOf 2 j)

theorem pay8_apply (v159 : FVec Ideal S1x512 .f32) (v160 v162 : Vec Ideal S1x1x512 .f32) (j : Fin 512) :
    k0_pay8 (F := Ideal) v159 v160 v162 (ix2 (0 : Fin 1) j)
      = md2Of (v159 (ix2 (0 : Fin 1) j)) (v160 (ix3 (0 : Fin 1) (0 : Fin 1) j)) (v162 (ix3 (0 : Fin 1) (0 : Fin 1) j)) := by
  unfold k0_pay8
  exact md2_pattern v159 v160 v162 _ _ j

theorem pay9_apply (v131 : FVec Ideal S4096x1 .f32) (v173 v175 : Vec Ideal S1x1x512 .f32) (j : Fin 512) :
    k0_pay9 (F := Ideal) v131 v173 v175 (ix2 (0 : Fin 1) j)
      = md2Of (v131 (ix2 (rowOf 3 j) (0 : Fin 1))) (v173 (ix3 (0 : Fin 1) (0 : Fin 1) j)) (v175 (ix3 (0 : Fin 1) (0 : Fin 1) j)) := by
  unfold k0_pay9
  refine (md2_pattern _ v173 v175 _ _ j).trans ?_
  rw [blockRow_apply v131 1536 _ _ j (rowOf 3 j) (by show 512 * 3 + j.val = 1536 + j.val; omega)]

theorem pay10_apply (v131 : FVec Ideal S4096x1 .f32) (v186 v188 : Vec Ideal S1x1x512 .f32) (j : Fin 512) :
    k0_pay10 (F := Ideal) v131 v186 v188 (ix2 (0 : Fin 1) j)
      = md2Of (v131 (ix2 (rowOf 4 j) (0 : Fin 1))) (v186 (ix3 (0 : Fin 1) (0 : Fin 1) j)) (v188 (ix3 (0 : Fin 1) (0 : Fin 1) j)) := by
  unfold k0_pay10
  refine (md2_core _ v186 v188 _ j).trans ?_
  rw [blockRow_apply v131 2048 _ _ j (rowOf 4 j) (by show 512 * 4 + j.val = 2048 + j.val; omega)]

theorem pay11_apply (v193 : FVec Ideal S1x512 .f32) (i : S1x512.Idx) : k0_pay11 (F := Ideal) v193 i = v193 i := by
  unfold k0_pay11
  rw [shapeCast_self]

theorem pay12_apply (v131 : FVec Ideal S4096x1 .f32) (v199 v201 : Vec Ideal S1x1x512 .f32) (j : Fin 512) :
    k0_pay12 (F := Ideal) v131 v199 v201 (ix2 (0 : Fin 1) j)
      = md2Of (v131 (ix2 (rowOf 5 j) (0 : Fin 1))) (v199 (ix3 (0 : Fin 1) (0 : Fin 1) j)) (v201 (ix3 (0 : Fin 1) (0 : Fin 1) j)) := by
  unfold k0_pay12
  refine (md2_pattern _ v199 v201 _ _ j).trans ?_
  rw [blockRow_apply v131 2560 _ _ j (rowOf 5 j) (by show 512 * 5 + j.val = 2560 + j.val; omega)]

theorem pay13_apply (v131 : FVec Ideal S4096x1 .f32) (v212 v214 : Vec Ideal S1x1x512 .f32) (j : Fin 512) :
    k0_pay13 (F := Ideal) v131 v212 v214 (ix2 (0 : Fin 1) j)
      = md2Of (v131 (ix2 (rowOf 6 j) (0 : Fin 1))) (v212 (ix3 (0 : Fin 1) (0 : Fin 1) j)) (v214 (ix3 (0 : Fin 1) (0 : Fin 1) j)) := by
  unfold k0_pay13
  refine (md2_pattern _ v212 v214 _ _ j).trans ?_
  rw [blockRow_apply v131 3072 _ _ j (rowOf 6 j) (by show 512 * 6 + j.val = 3072 + j.val; omega)]

theorem pay14_apply (v131 : FVec Ideal S4096x1 .f32) (j : Fin 512) :
    k0_pay14 (F := Ideal) v131 (ix2 (0 : Fin 1) j) = v131 (ix2 (rowOf 7 j) (0 : Fin 1)) := by
  unfold k0_pay14
  exact blockRow_apply v131 3584 _ _ j (rowOf 7 j) (by show 512 * 7 + j.val = 3584 + j.val; omega)

theorem pay15_apply (v225 : Vec Ideal S1x1x512 .f32) (j : Fin 512) :
    k0_pay15 (F := Ideal) v225 (ix2 (0 : Fin 1) j) = v225 (ix3 (0 : Fin 1) (0 : Fin 1) j) := by
  unfold k0_pay15
  exact shapeCast_1ab_ab_apply v225 _ (0 : Fin 1) j

theorem pay2_apply (v224 v226 : FVec Ideal S1x512 .f32) (v227 : Vec Ideal S1x1x512 .f32) (j : Fin 512) :
    k0_pay2 (F := Ideal) v224 v226 v227 (ix2 (0 : Fin 1) j)
      = md2Of (v224 (ix2 (0 : Fin 1) j)) (v226 (ix2 (0 : Fin 1) j)) (v227 (ix3 (0 : Fin 1) (0 : Fin 1) j)) := by
  unfold k0_pay2
  rw [shapeCast_self, maximumf_apply, minimumf_apply, addf_apply, broadcast_apply, shapeCast_1ab_ab_apply]
  rfl

private def rowEquiv : S1x8x512.Idx ≃ Fin 4096 where
  toFun i := rowOf (i 1) (i 2)
  invFun p := ix3 (0 : Fin 1) (⟨p.val / 512, by have := p.isLt; omega⟩ : Fin 8) (⟨p.val % 512, Nat.mod_lt _ (by decide)⟩ : Fin 512)
  left_inv i := by
    have h1 : (i 1).val < 8 := (i 1).isLt
    have h2 : (i 2).val < 512 := (i 2).isLt
    have h0 : (i 0).val = 0 := by have : (i 0).val < 1 := (i 0).isLt; omega
    funext a
    match a with
    | ⟨0, _⟩ => exact Fin.ext h0.symm
    | ⟨1, _⟩ => exact Fin.ext (by show (512 * (i 1).val + (i 2).val) / 512 = (i 1).val; omega)
    | ⟨2, _⟩ => exact Fin.ext (by show (512 * (i 1).val + (i 2).val) % 512 = (i 2).val; omega)
  right_inv p := Fin.ext (by show 512 * (p.val / 512) + p.val % 512 = p.val; omega)

/-- The closing reduction over an assembly buffer that holds every row's clamped squared distance is `kerLoss`. -/
theorem pay3_spec (x : XT) (v236 : Vec Ideal S8x512 .f32)
    (h : ∀ (b : Fin 8) (j : Fin 512), v236 (ix2 b j) = kerMd2 x (rowOf b j)) (i : S1x1.Idx) :
    k0_pay3 (F := Ideal) v236 i = kerLoss x := by
  unfold k0_pay3 kerLoss
  rw [mulf_apply, broadcast_apply, broadcast_apply]
  refine congrArg₂ (· * ·) ?_ rfl
  unfold extractAt
  refine (shapeCast_apply _ _ _ (ix1 (0 : Fin 1)) ?_).trans ?_
  · rw [Shape.rowMajor_val_one, Shape.rowMajor_val_three]; rfl
  refine (Ideal.multiReduction_add_total _ _ _ (fun b => by match b with | ⟨0, _⟩ => rfl) _ _ _).trans ?_
  refine Fintype.sum_equiv rowEquiv _ _ fun i => ?_
  obtain ⟨u, b, j, rfl⟩ : ∃ (u : Fin 1) (b : Fin 8) (j : Fin 512), i = ix3 u b j := ⟨i 0, i 1, i 2, eq_ix3 i⟩
  rw [shapeCast_ab_1ab_apply]
  show Ideal.log (Ideal.sqrt (v236 (ix2 b j)) + eps) = Ideal.log (Ideal.sqrt (kerMd2 x (rowOf b j)) + eps)
  rw [h b j]

end Cert.KernelIdeal.Val

end
-- ==== Proof.OutH.lean ====
import proofs.«141847_g74552042324289_cont_9to1_m_1244_12_alg».proof.Proof.StepH
import proofs.«141847_g74552042324289_cont_9to1_m_1244_12_alg».proof.Proof.PayFin
import proofs.«141847_g74552042324289_cont_9to1_m_1244_12_alg».proof.Proof.WritesAt

set_option maxRecDepth 16384

noncomputable section

namespace Cert.KernelIdeal.Gen

open Idealize.ShloMosaic Idealize.ShloMosaic.TcCoe Idealize.ShloMosaic.ValueIdx
open Idealize.SL Idealize.SL.Sem
open Cert.KernelIdeal.Val KoLeo

namespace OutH

section Loads
variable {κ : Kind} {sp : Space} {s : Shape} {e : EltTy}

theorem idx_unit (off size : Fin s.rank → ℕ) (inb : ∀ a, off a + size a ≤ s.size a)
    (x : (Rect.unit off size inb).shape.Idx) (y : s.Idx) (hx : ∀ a, (y a).val = off a + (x a).val) :
    (Rect.unit off size inb).toLoadRect.idx x = y :=
  funext fun a => Fin.ext (by
    rw [LoadRect.idx_apply, hx a]
    show off a + 1 * (x a).val = off a + (x a).val
    rw [Nat.one_mul])

theorem load_at (v : View sig κ sp s e) (f : v.ty.Contents (Elt Ideal)) (off size : Fin s.rank → ℕ)
    (inb : ∀ a, off a + size a ≤ s.size a) (x : (Rect.unit off size inb).shape.Idx) (y : s.Idx)
    (hx : ∀ a, (y a).val = off a + (x a).val) :
    View.readAt (Elt Ideal) v (Rect.unit off size inb).toLoadRect f x = v.read (Elt Ideal) f y := by
  rw [View.readAt_apply, idx_unit off size inb x y hx]

theorem cov_pieces (v : View sig κ sp s e) (L : List (View.Piece (Elt Ideal) s e)) (G : s.Idx → Elt Ideal e)
    (hG : ∀ p ∈ L, ∀ x : p.1.shape.Idx, p.2 x = G (p.1.emb x)) (hc : ∀ y : s.Idx, ∃ p ∈ L, y ∈ p.1.set)
    (off size : Fin s.rank → ℕ) (inb : ∀ a, off a + size a ≤ s.size a) (x : (Rect.unit off size inb).shape.Idx) (y : s.Idx)
    (hx : ∀ a, (y a).val = off a + (x a).val) :
    v.readCov L (Rect.unit off size inb).toLoadRect x = G y := by
  show v.read (Elt Ideal) (v.writes (Elt Ideal) v.junk L) ((Rect.unit off size inb).toLoadRect.idx x) = _
  rw [idx_unit off size inb x y hx]
  exact View.read_writes_apply_of_pieces v v.junk G L hG y (hc y)

end Loads

theorem row_piece (x : XT) (b : Fin 8) (off : Fin 2 → ℕ) (hoff : off = ![b.val, 0])
    (inb : ∀ a, off a + S1x512.size a ≤ S8x512.size a)
    (w : (Rect.unit (s := S8x512) off S1x512.size inb).shape.Idx → Elt Ideal .f32)
    (hw : ∀ j : Fin 512, w (ix2 (0 : Fin 1) j) = kerMd2 x (rowOf b j))
    (xx : (Rect.unit (s := S8x512) off S1x512.size inb).shape.Idx) :
    w xx = kerMd2 x (rowOf ((Rect.unit (s := S8x512) off S1x512.size inb).emb xx 0) ((Rect.unit (s := S8x512) off S1x512.size inb).emb xx 1)) := by
  subst hoff
  obtain ⟨u, j, rfl⟩ : ∃ (u : Fin 1) (j : Fin 512), xx = ix2 u j := ⟨xx 0, xx 1, eq_ix2 xx⟩
  obtain rfl : u = 0 := Subsingleton.elim _ _
  rw [hw j]
  refine congrArg (kerMd2 x) (Fin.ext ?_)
  show 512 * b.val + j.val = 512 * (b.val + 1 * 0) + (0 + 1 * j.val)
  omega

theorem md2_row (x : XT) (v127 : Vec Ideal S4096x128 .f32) (v130 : Vec Ideal S4096x1 .f32)
    (hr : ∀ (r : Fin 4096) (l : Fin 128), v127 (ix2 r l) = rowPart x r l 0 (bandEnd r))
    (hn : ∀ r : Fin 4096, v130 (ix2 r (0 : Fin 1)) = sq x r)
    (p : Fin 4096) (ca nm : EReal) (hca : ca = colPart x p (bandEnd p) 4096) (hnm : nm = sq x p) :
    md2Of (rowFull v127 v130 p) ca nm = kerMd2 x p := by
  unfold md2Of rowFull
  exact kerMd2_of_parts x p (fun l => v127 (ix2 p l)) (hr p) ca hca _ nm (hn p) hnm

end OutH

open OutH in
/-- After the last block every accumulator is full, so the closing stage stores `kerLoss`. -/
theorem out_H (x : XT) (c : Dev nD) (i : grid0.Coords) (arg1 : Memref sig .tc .vmem S512x1024 .f32) (harg1 : arg1.IsWhole) (arg2 : Memref sig .tc .vmem S1x1 .f32) (harg2 : arg2.IsWhole) (arg3 : Memref sig .tc .vmem S4096x1024 .bf16) (harg3 : arg3.IsWhole) (arg4 : Memref sig .tc .vmem S4096x1 .f32) (harg4 : arg4.IsWhole) (arg5 : Memref sig .tc .vmem S8x1x512 .f32) (harg5 : arg5.IsWhole) (arg6 : Memref sig .tc .vmem S4096x128 .f32) (harg6 : arg6.IsWhole) (arg7 : Memref sig .tc .vmem S8x1x512 .f32) (harg7 : arg7.IsWhole) (arg8 : Memref sig .tc .vmem S8x512 .f32) (harg8 : arg8.IsWhole)
    (hg : (i 0).val = 7) (hI : ¬ condI i) (h2 : k0_cond2 i = 1#1) (h3 : k0_cond3 i = 1#1) (h4 : k0_cond4 i = 1#1) (h5 : k0_cond5 i = 1#1) (h6 : k0_cond6 i = 1#1) (h7 : k0_cond7 i = 1#1) (h8 : k0_cond8 i = 1#1) (h9 : k0_cond9 i = 1#1)
    (x0 : Vec Ideal S512x1024 .f32) (hx0 : IsBlock x ⟨7, by decide⟩ x0)
    (xs3 : Vec Ideal S4096x1024 .bf16) (xs4 : Vec Ideal S4096x1 .f32) (xs5 : Vec Ideal S8x1x512 .f32) (xs6 : Vec Ideal S4096x128 .f32) (xs7 : Vec Ideal S8x1x512 .f32) (xs8 : Vec Ideal S8x512 .f32)
    (hinv : Inv x 7 xs3 xs4 xs5 xs6 xs7) (f2 : arg2.view.ty.Contents (Elt Ideal)) :
    arg2.view.read (Elt Ideal) (arg2.view.writes (Elt Ideal) f2 (kernelRun0_H (F := Ideal) c i arg1 harg1 arg2 harg2 arg3 harg3 arg4 harg4 arg5 harg5 arg6 harg6 arg7 harg7 arg8 harg8 hg hI h2 h3 h4 h5 h6 h7 h8 h9 x0 xs3 xs4 xs5 xs6 xs7 xs8).1) = fun _ => kerLoss x := by
  have hS := @step_H x c i arg1 harg1 arg2 harg2 arg3 harg3 arg4 harg4 arg5 harg5 arg6 harg6 arg7 harg7 arg8 harg8 hg hI h2 h3 h4 h5 h6 h7 h8 h9 x0 hx0 xs3 xs4 xs5 xs6 xs7 xs8 hinv
  unfold kernelRun0_H at hS ⊢
  dsimp only at hS ⊢
  funext y

  refine Eq.trans (View.read_writes_cons_unit_of_mem _ _ _ _ _ y ?x rfl ?hx) ?_
  case x => exact y
  case hx =>
    intro a
    match a with
    | ⟨0, _⟩ => exact (Nat.zero_add _).symm
    | ⟨1, _⟩ => exact (Nat.zero_add _).symm
  refine pay3_spec x _ (fun b j => ?_) y
  unfold kernelRun0_H.sl.v236

  have hR : ∀ (r : Fin 4096) (l : Fin 128), kernelRun0_H.sl.v127 (F := Ideal) c i arg1 harg1 arg3 harg3 arg5 harg5 arg6 harg6 h2 h3 h4 h5 h6 h7 h8 x0 xs3 xs5 xs6 (ix2 r l) = rowPart x r l 0 (bandEnd r) := fun r l => by
    unfold kernelRun0_H.sl.v127
    rw [load_at arg6.view _ ![0, 0] S4096x128.size inb_S4096x128_S4096x128_0_0 (ix2 r l) (ix2 r l) (fun a => by
      match a with
      | ⟨0, _⟩ => exact (Nat.zero_add _).symm
      | ⟨1, _⟩ => exact (Nat.zero_add _).symm)]
    rw [hS.rowAcc r l, if_pos (by have := r.isLt; omega)]
  have hN : ∀ r : Fin 4096, View.readAt (Elt Ideal) arg4.view (Rect.unit (s := S4096x1) ![0, 0] S4096x1.size inb_S4096x1_S4096x1_0_0).toLoadRect (arg4.view.writes (Elt Ideal) (harg4.unread xs4) (kernelRun0_H.sl.H4_1 (F := Ideal) c i arg1 harg1 x0)) (ix2 r (0 : Fin 1)) = sq x r := fun r => by
    rw [load_at arg4.view _ ![0, 0] S4096x1.size inb_S4096x1_S4096x1_0_0 (ix2 r (0 : Fin 1)) (ix2 r (0 : Fin 1)) (fun a => by
      match a with
      | ⟨0, _⟩ => exact (Nat.zero_add _).symm
      | ⟨1, _⟩ => exact (Nat.zero_add _).symm)]
    exact hS.normCol r (by have := r.isLt; omega)
  have hM : ∀ (b : Fin 8) (off : Fin 3 → ℕ) (inb : ∀ a, off a + S1x1x512.size a ≤ S8x1x512.size a) (hoff : off = ![b.val, 0, 0]) (j : Fin 512),
      View.readAt (Elt Ideal) arg5.view (Rect.unit (s := S8x1x512) off S1x1x512.size inb).toLoadRect (arg5.view.writes (Elt Ideal) (harg5.unread xs5) (kernelRun0_H.sl.H5_1 (F := Ideal) c i arg1 harg1 x0)) (ix3 (0 : Fin 1) (0 : Fin 1) j) = sq x (rowOf b j) := by
    intro b off inb hoff j
    subst hoff
    rw [load_at arg5.view _ _ S1x1x512.size inb (ix3 (0 : Fin 1) (0 : Fin 1) j) (ix3 b (0 : Fin 1) j) (fun a => by
      match a with
      | ⟨0, _⟩ => exact (Nat.add_zero _).symm
      | ⟨1, _⟩ => exact (Nat.zero_add _).symm
      | ⟨2, _⟩ => exact (Nat.zero_add _).symm)]
    exact hS.normRow b j b.isLt
  have hC7 : ∀ (b : Fin 8) (off : Fin 3 → ℕ) (inb : ∀ a, off a + S1x1x512.size a ≤ S8x1x512.size a) (hoff : off = ![b.val, 0, 0]) (j : Fin 512),
      View.readAt (Elt Ideal) arg7.view (Rect.unit (s := S8x1x512) off S1x1x512.size inb).toLoadRect (arg7.view.writes (Elt Ideal) (harg7.unread xs7) (kernelRun0_H.sl.H7_8 (F := Ideal) c i arg1 harg1 arg3 harg3 arg7 harg7 x0 xs3 xs7)) (ix3 (0 : Fin 1) (0 : Fin 1) j) = colPart x (rowOf b j) (bandEnd (rowOf b j)) 4096 := by
    intro b off inb hoff j
    subst hoff
    rw [load_at arg7.view _ _ S1x1x512.size inb (ix3 (0 : Fin 1) (0 : Fin 1) j) (ix3 b (0 : Fin 1) j) (fun a => by
      match a with
      | ⟨0, _⟩ => exact (Nat.add_zero _).symm
      | ⟨1, _⟩ => exact (Nat.zero_add _).symm
      | ⟨2, _⟩ => exact (Nat.zero_add _).symm)]
    exact hS.colAcc b j
  have hC : ∀ (b : Fin 8) (k : ℕ) (off : Fin 3 → ℕ) (inb : ∀ a, off a + S1x1x512.size a ≤ S8x1x512.size a) (hoff : off = ![b.val, 0, 0])
      (hk : LoadRect.covChk ((kernelRun0_H.sl.H7_8 (F := Ideal) c i arg1 harg1 arg3 harg3 arg7 harg7 x0 xs3 xs7).map Sigma.fst) (Rect.unit (s := S8x1x512) off S1x1x512.size inb).toLoadRect (.leaf k) = true) (j : Fin 512),
      arg7.view.readCov (kernelRun0_H.sl.H7_8 (F := Ideal) c i arg1 harg1 arg3 harg3 arg7 harg7 x0 xs3 xs7) (Rect.unit (s := S8x1x512) off S1x1x512.size inb).toLoadRect (ix3 (0 : Fin 1) (0 : Fin 1) j) = colPart x (rowOf b j) (bandEnd (rowOf b j)) 4096 := by
    intro b k off inb hoff hk j
    rw [← View.readAt_writes_of_cover arg7.view (harg7.unread xs7) _ _ (LoadRect.cover_of_covChk _ _ _ hk)]
    exact hC7 b off inb hoff j

  refine cov_pieces arg8.view _ (fun y => kerMd2 x (rowOf (y 0) (y 1))) ?hG ?hc ![0, 0] S8x512.size inb_S8x512_S8x512_0_0 (ix2 b j) (ix2 b j) (fun a => by
      match a with
      | ⟨0, _⟩ => exact (Nat.zero_add _).symm
      | ⟨1, _⟩ => exact (Nat.zero_add _).symm)
  case hc => exact View.cover_of_tiled _ ![1, 512] rfl
  case hG =>
    unfold kernelRun0_H.sl.H8_8 kernelRun0_H.sl.r_11 kernelRun0_H.sl.r_10 kernelRun0_H.sl.r_9 kernelRun0_H.sl.r_8 kernelRun0_H.sl.r_7
    unfold kernelRun0_H.sl.v225 kernelRun0_H.sl.v227 kernelRun0_H.sl.v212 kernelRun0_H.sl.v199 kernelRun0_H.sl.v186 kernelRun0_H.sl.v173 kernelRun0_H.sl.v160 kernelRun0_H.sl.v147 kernelRun0_H.sl.v134_6
    unfold kernelRun0_H.sl.v129_6 kernelRun0_H.sl.v129_5 kernelRun0_H.sl.v129_4 kernelRun0_H.sl.v129_3 kernelRun0_H.sl.v129_2 kernelRun0_H.sl.v129_1 kernelRun0_H.sl.v129
    intro p hp
    simp only [List.mem_cons, List.mem_nil_iff, or_false] at hp
    rcases hp with rfl | rfl | rfl | rfl | rfl | rfl | rfl | rfl
    ·
      refine fun xx => row_piece x 7 ![7, 0] rfl inb_S8x512_S1x512_7_0 _ (fun jj => ?_) xx
      dsimp only
      rw [pay2_apply, pay14_apply, pay4_apply, pay15_apply]
      exact md2_row x _ _ hR hN _ _ _ (hC7 7 _ _ rfl jj) (hM 7 _ _ rfl jj)
    ·
      refine fun xx => row_piece x 6 ![6, 0] rfl inb_S8x512_S1x512_6_0 _ (fun jj => ?_) xx
      dsimp only
      rw [pay13_apply, pay4_apply]
      exact md2_row x _ _ hR hN _ _ _ (hC 6 1 _ _ rfl rfl jj) (hM 6 _ _ rfl jj)
    ·
      refine fun xx => row_piece x 5 ![5, 0] rfl inb_S8x512_S1x512_5_0 _ (fun jj => ?_) xx
      dsimp only
      rw [pay12_apply, pay4_apply]
      exact md2_row x _ _ hR hN _ _ _ (hC 5 2 _ _ rfl rfl jj) (hM 5 _ _ rfl jj)
    ·
      refine fun xx => row_piece x 4 ![4, 0] rfl inb_S8x512_S1x512_4_0 _ (fun jj => ?_) xx
      dsimp only
      rw [pay11_apply, pay10_apply, pay4_apply]
      exact md2_row x _ _ hR hN _ _ _ (hC 4 3 _ _ rfl rfl jj) (hM 4 _ _ rfl jj)
    ·
      refine fun xx => row_piece x 3 ![3, 0] rfl inb_S8x512_S1x512_3_0 _ (fun jj => ?_) xx
      dsimp only
      rw [pay9_apply, pay4_apply]
      exact md2_row x _ _ hR hN _ _ _ (hC 3 4 _ _ rfl rfl jj) (hM 3 _ _ rfl jj)
    ·
      refine fun xx => row_piece x 2 ![2, 0] rfl inb_S8x512_S1x512_2_0 _ (fun jj => ?_) xx
      dsimp only
      rw [pay8_apply, pay7_apply]
      exact md2_row x _ _ hR hN _ _ _ (hC 2 5 _ _ rfl rfl jj) (hM 2 _ _ rfl jj)
    ·
      refine fun xx => row_piece x 1 ![1, 0] rfl inb_S8x512_S1x512_1_0 _ (fun jj => ?_) xx
      dsimp only
      rw [pay6_apply]
      exact md2_row x _ _ hR hN _ _ _ (hC 1 6 _ _ rfl rfl jj) (hM 1 _ _ rfl jj)
    ·
      refine fun xx => row_piece x 0 ![0, 0] rfl inb_S8x512_S1x512_0_0 _ (fun jj => ?_) xx
      dsimp only
      rw [pay5_apply]
      exact md2_row x _ _ hR hN _ _ _ (hC 0 7 _ _ rfl rfl jj) (hM 0 _ _ rfl jj)

end Cert.KernelIdeal.Gen

end
-- ==== Proof.KBlock.lean ====
import proofs.«141847_g74552042324289_cont_9to1_m_1244_12_alg».proof.Proof.KDat

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Val Idealize.ShloMosaic.ValueIdx

variable (m : (ℓ : Loc nD τ sig) → Buf (Elt Ideal) ℓ)

theorem isBlock_iblk (c : Dev nD) (t : Fin cfg0.N) (g : Fin 8) (ht : t.val = g.val) : IsBlock (xin m c) g (iblk m c 0 t) := by
  intro a k

  have hidx : ∀ t : Fin cfg0.N, win0_0.index t (0 : Fin 2) = t.val ∧ win0_0.index t (1 : Fin 2) = 0 :=
    (by decide +kernel : ∀ t : Fin grid0.N, win0_0.index t (0 : Fin 2) = t.val ∧ win0_0.index t (1 : Fin 2) = 0)
  obtain ⟨e0, e1⟩ := hidx t
  unfold iblk xin
  show V m c main_arg0 (((cfg0.win 0).blk t).view.emb (ix2 a k)) = V m c main_arg0 (ix2 (rowOf g a) k)
  congr 1
  funext d
  apply Fin.ext
  match d with
  | ⟨0, _⟩ =>

    show win0_0.index t (0 : Fin 2) * 512 + 1 * a.val = 512 * g.val + a.val
    omega
  | ⟨1, _⟩ =>

    show win0_0.index t (1 : Fin 2) * 1024 + 1 * k.val = k.val
    omega

end Cert.KernelIdeal.Gen

end
-- ==== Proof.KBody.lean ====
import proofs.«141847_g74552042324289_cont_9to1_m_1244_12_alg».proof.Proof.KDat
import proofs.«141847_g74552042324289_cont_9to1_m_1244_12_alg».proof.Proof.StepA
import proofs.«141847_g74552042324289_cont_9to1_m_1244_12_alg».proof.Proof.StepB
import proofs.«141847_g74552042324289_cont_9to1_m_1244_12_alg».proof.Proof.StepC
import proofs.«141847_g74552042324289_cont_9to1_m_1244_12_alg».proof.Proof.StepD
import proofs.«141847_g74552042324289_cont_9to1_m_1244_12_alg».proof.Proof.StepE
import proofs.«141847_g74552042324289_cont_9to1_m_1244_12_alg».proof.Proof.StepF
import proofs.«141847_g74552042324289_cont_9to1_m_1244_12_alg».proof.Proof.StepG
import proofs.«141847_g74552042324289_cont_9to1_m_1244_12_alg».proof.Proof.StepH
import proofs.«141847_g74552042324289_cont_9to1_m_1244_12_alg».proof.Proof.OutH
import proofs.«141847_g74552042324289_cont_9to1_m_1244_12_alg».proof.Proof.KBlock

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Val

local notation "𝕄" => MT nD τ sig Unit (Elt Ideal) ℕ (UR sig nD τ) ℕ

variable (m : (ℓ : Loc nD τ sig) → Buf (Elt Ideal) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4000000 in

theorem sound_A (c : Dev nD) (t : Fin cfg0.N) (ht : t.val = 0) :
    bodyPre m c t ⊢ wp frame (wpE (defs₀ (F := Ideal)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) from rfl, PhiS_succ, PhiS_castSucc m c t]
  rw [show (dats m 0 c).leavesExact 0 t = owns (c : Thread nD τ) (ms0_0 t) fullShare ((dats m 0 c).after 0 t) from by
      unfold Dat.leavesExact; rw [liveAt0_0 t], after0_0]
  rw [Dat.leavesExact_idle (dats m 0 c) 1 t (idleAt0_1 t (by omega)) (noFlush0_1 t (by omega))]
  rw [show PhiS m c t.val = Pipeline.ΦA spec0 c from by rw [ht]; rfl, PhiA0_eq]
  iintro ⟨⟨⟨⟨%s3, HS3⟩, ⟨%s4, HS4⟩, ⟨%s5, HS5⟩, ⟨%s6, HS6⟩, ⟨%s7, HS7⟩, ⟨%s8, HS8⟩⟩, Hg⟩, Ho, ⟨%d0, H0⟩, ⟨%d1, H1⟩⟩
  iapply ((kernelRun0_A (F := Ideal) c (grid0.coords t) (ms0_0 t) (hs0_0 t) (ms0_1 t) (hs0_1 t) scM3 (Memref.isWhole_whole _) scM4 (Memref.isWhole_whole _) scM5 (Memref.isWhole_whole _) scM6 (Memref.isWhole_whole _) scM7 (Memref.isWhole_whole _) scM8 (Memref.isWhole_whole _) ((hcoord0 t).trans ht) ((hcondI t).mpr (by omega)) (fun h => absurd ((hcond2 t).mp h) (by omega)) (fun h => absurd ((hcond3 t).mp h) (by omega)) (fun h => absurd ((hcond4 t).mp h) (by omega)) (fun h => absurd ((hcond5 t).mp h) (by omega)) (fun h => absurd ((hcond6 t).mp h) (by omega)) (fun h => absurd ((hcond7 t).mp h) (by omega)) (fun h => absurd ((hcond8 t).mp h) (by omega)) (fun h => absurd ((hcond9 t).mp h) (by omega)) (iblk m c 0 t) s3 s4 s5 s6 s7 s8).2.2.2.2.2.2 _ Set.univ _)
  isplitl [H0]; · iexact H0
  isplitl [H1]; · iexact H1
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, HS3, HS4, HS5, ⟨%f6, HS6⟩, ⟨%f7, HS7⟩, HS8⟩
  isplitl [HS3 HS4 HS5 HS6 HS7 HS8 Hg]
  · isplitr [Hg]
    swap; · iexact Hg
    iexists _, _, _, _, _, _
    isplitr
    swap
    isplitl [HS3]
    · unfold owns; iexists _; isplitr
      swap; · iexact HS3
      ipureintro; rfl
    isplitl [HS4]
    · unfold owns; iexists _; isplitr
      swap; · iexact HS4
      ipureintro; rfl
    isplitl [HS5]
    · unfold owns; iexists _; isplitr
      swap; · iexact HS5
      ipureintro; rfl
    isplitl [HS6]
    · unfold owns; iexists _; isplitr
      swap; · iexact HS6
      ipureintro; rfl
    isplitl [HS7]
    · unfold owns; iexists _; isplitr
      swap; · iexact HS7
      ipureintro; rfl
    · unfold owns; iexists _; isplitr
      swap; · iexact HS8
      ipureintro; rfl
    ipureintro
    rw [show t.val + 1 = 0 + 1 from by rw [ht]]
    exact (step_A (xin m c) c (grid0.coords t) (ms0_0 t) (hs0_0 t) (ms0_1 t) (hs0_1 t) scM3 (Memref.isWhole_whole _) scM4 (Memref.isWhole_whole _) scM5 (Memref.isWhole_whole _) scM6 (Memref.isWhole_whole _) scM7 (Memref.isWhole_whole _) scM8 (Memref.isWhole_whole _) ((hcoord0 t).trans ht) ((hcondI t).mpr (by omega)) (fun h => absurd ((hcond2 t).mp h) (by omega)) (fun h => absurd ((hcond3 t).mp h) (by omega)) (fun h => absurd ((hcond4 t).mp h) (by omega)) (fun h => absurd ((hcond5 t).mp h) (by omega)) (fun h => absurd ((hcond6 t).mp h) (by omega)) (fun h => absurd ((hcond7 t).mp h) (by omega)) (fun h => absurd ((hcond8 t).mp h) (by omega)) (fun h => absurd ((hcond9 t).mp h) (by omega)) (iblk m c 0 t) (isBlock_iblk m c t ⟨0, by decide⟩ ht) s3 s4 s5 s6 s7 s8 f6 f7)
  isplitl [Ho]; · iexact Ho
  isplitl [H0]; · iexact H0
  iexists _; iexact H1

abbrev RunPieces (c : Dev nD) (t : Fin cfg0.N) : Type :=
  ∀ s3 s4 s5 s6 s7 s8, RunT (F := Ideal) c (grid0.coords t) (ms0_0 t) (hs0_0 t) (ms0_1 t) (hs0_1 t) scM3 (Memref.isWhole_whole _) scM4 (Memref.isWhole_whole _) scM5 (Memref.isWhole_whole _) scM6 (Memref.isWhole_whole _) scM7 (Memref.isWhole_whole _) scM8 (Memref.isWhole_whole _) (iblk m c 0 t) s3 s4 s5 s6 s7 s8

set_option maxHeartbeats 4000000 in

/-- A point strictly between the first and the last: the run returns the scratch arrays as stores over what they held, and the step lemma carries the invariant across. -/
theorem sound_mid (c : Dev nD) (t : Fin cfg0.N) (n : ℕ) (ht : t.val = n + 1) (h7 : t.val ≠ 7) (run : RunPieces m c t)
    (hstep : ∀ s3 s4 s5 s6 s7 s8, Inv (xin m c) (n + 1) s3 s4 s5 s6 s7 → Inv (xin m c) (n + 1 + 1)
      (scM3.view.read (Elt Ideal) (scM3.view.writes (Elt Ideal) ((Memref.isWhole_whole _).unread s3) (run s3 s4 s5 s6 s7 s8).1))
      (scM4.view.read (Elt Ideal) (scM4.view.writes (Elt Ideal) ((Memref.isWhole_whole _).unread s4) (run s3 s4 s5 s6 s7 s8).2.1))
      (scM5.view.read (Elt Ideal) (scM5.view.writes (Elt Ideal) ((Memref.isWhole_whole _).unread s5) (run s3 s4 s5 s6 s7 s8).2.2.1))
      (scM6.view.read (Elt Ideal) (scM6.view.writes (Elt Ideal) ((Memref.isWhole_whole _).unread s6) (run s3 s4 s5 s6 s7 s8).2.2.2.1))
      (scM7.view.read (Elt Ideal) (scM7.view.writes (Elt Ideal) ((Memref.isWhole_whole _).unread s7) (run s3 s4 s5 s6 s7 s8).2.2.2.2.1))) :
    bodyPre m c t ⊢ wp frame (wpE (defs₀ (F := Ideal)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) from rfl, PhiS_succ, PhiS_castSucc m c t]
  rw [show (dats m 0 c).leavesExact 0 t = owns (c : Thread nD τ) (ms0_0 t) fullShare ((dats m 0 c).after 0 t) from by
      unfold Dat.leavesExact; rw [liveAt0_0 t], after0_0]
  rw [Dat.leavesExact_idle (dats m 0 c) 1 t (idleAt0_1 t h7) (noFlush0_1 t h7)]
  rw [show PhiS m c t.val = PhiS m c (n + 1) from by rw [ht], PhiS_succ]
  iintro ⟨⟨⟨%s3, %s4, %s5, %s6, %s7, %s8, %hinv, HS3, HS4, HS5, HS6, HS7, HS8⟩, Hg⟩, Ho, ⟨%d0, H0⟩, ⟨%d1, H1⟩⟩
  iapply ((run s3 s4 s5 s6 s7 s8).2.2.2.2.2.2 _ Set.univ _)
  isplitl [H0]; · iexact H0
  isplitl [H1]; · iexact H1
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, HS3, HS4, HS5, HS6, HS7, HS8⟩
  isplitl [HS3 HS4 HS5 HS6 HS7 HS8 Hg]
  · isplitr [Hg]
    swap; · iexact Hg
    iexists _, _, _, _, _, _
    isplitr
    swap
    isplitl [HS3]
    · unfold owns; iexists _; isplitr
      swap; · iexact HS3
      ipureintro; rfl
    isplitl [HS4]
    · unfold owns; iexists _; isplitr
      swap; · iexact HS4
      ipureintro; rfl
    isplitl [HS5]
    · unfold owns; iexists _; isplitr
      swap; · iexact HS5
      ipureintro; rfl
    isplitl [HS6]
    · unfold owns; iexists _; isplitr
      swap; · iexact HS6
      ipureintro; rfl
    isplitl [HS7]
    · unfold owns; iexists _; isplitr
      swap; · iexact HS7
      ipureintro; rfl
    · unfold owns; iexists _; isplitr
      swap; · iexact HS8
      ipureintro; rfl
    ipureintro
    rw [show t.val + 1 = n + 1 + 1 from by rw [ht]]
    exact hstep s3 s4 s5 s6 s7 s8 hinv
  isplitl [Ho]; · iexact Ho
  isplitl [H0]; · iexact H0
  iexists _; iexact H1

theorem sound_B (c : Dev nD) (t : Fin cfg0.N) (ht : t.val = 1) :
    bodyPre m c t ⊢ wp frame (wpE (defs₀ (F := Ideal)) Variants.none c none) Set.univ (bodyAt0 t) (fun _ => bodyPost m c t) :=
  sound_mid m c t 0 ht (by omega) (kernelRun0_B (F := Ideal) c (grid0.coords t) (ms0_0 t) (hs0_0 t) (ms0_1 t) (hs0_1 t) scM3 (Memref.isWhole_whole _) scM4 (Memref.isWhole_whole _) scM5 (Memref.isWhole_whole _) scM6 (Memref.isWhole_whole _) scM7 (Memref.isWhole_whole _) scM8 (Memref.isWhole_whole _) ((hcoord0 t).trans ht) (fun h => absurd ((hcondI t).mp h) (by omega)) ((hcond2 t).mpr (by omega)) (fun h => absurd ((hcond3 t).mp h) (by omega)) (fun h => absurd ((hcond4 t).mp h) (by omega)) (fun h => absurd ((hcond5 t).mp h) (by omega)) (fun h => absurd ((hcond6 t).mp h) (by omega)) (fun h => absurd ((hcond7 t).mp h) (by omega)) (fun h => absurd ((hcond8 t).mp h) (by omega)) (fun h => absurd ((hcond9 t).mp h) (by omega)) (iblk m c 0 t))
    fun _ _ _ _ _ _ hinv => step_B (xin m c) (isBlock_iblk m c t ⟨1, by decide⟩ ht) hinv

theorem sound_C (c : Dev nD) (t : Fin cfg0.N) (ht : t.val = 2) :
    bodyPre m c t ⊢ wp frame (wpE (defs₀ (F := Ideal)) Variants.none c none) Set.univ (bodyAt0 t) (fun _ => bodyPost m c t) :=
  sound_mid m c t 1 ht (by omega) (kernelRun0_C (F := Ideal) c (grid0.coords t) (ms0_0 t) (hs0_0 t) (ms0_1 t) (hs0_1 t) scM3 (Memref.isWhole_whole _) scM4 (Memref.isWhole_whole _) scM5 (Memref.isWhole_whole _) scM6 (Memref.isWhole_whole _) scM7 (Memref.isWhole_whole _) scM8 (Memref.isWhole_whole _) ((hcoord0 t).trans ht) (fun h => absurd ((hcondI t).mp h) (by omega)) ((hcond2 t).mpr (by omega)) ((hcond3 t).mpr (by omega)) (fun h => absurd ((hcond4 t).mp h) (by omega)) (fun h => absurd ((hcond5 t).mp h) (by omega)) (fun h => absurd ((hcond6 t).mp h) (by omega)) (fun h => absurd ((hcond7 t).mp h) (by omega)) (fun h => absurd ((hcond8 t).mp h) (by omega)) (fun h => absurd ((hcond9 t).mp h) (by omega)) (iblk m c 0 t))
    fun _ _ _ _ _ _ hinv => step_C (xin m c) (isBlock_iblk m c t ⟨2, by decide⟩ ht) hinv

theorem sound_D (c : Dev nD) (t : Fin cfg0.N) (ht : t.val = 3) :
    bodyPre m c t ⊢ wp frame (wpE (defs₀ (F := Ideal)) Variants.none c none) Set.univ (bodyAt0 t) (fun _ => bodyPost m c t) :=
  sound_mid m c t 2 ht (by omega) (kernelRun0_D (F := Ideal) c (grid0.coords t) (ms0_0 t) (hs0_0 t) (ms0_1 t) (hs0_1 t) scM3 (Memref.isWhole_whole _) scM4 (Memref.isWhole_whole _) scM5 (Memref.isWhole_whole _) scM6 (Memref.isWhole_whole _) scM7 (Memref.isWhole_whole _) scM8 (Memref.isWhole_whole _) ((hcoord0 t).trans ht) (fun h => absurd ((hcondI t).mp h) (by omega)) ((hcond2 t).mpr (by omega)) ((hcond3 t).mpr (by omega)) ((hcond4 t).mpr (by omega)) (fun h => absurd ((hcond5 t).mp h) (by omega)) (fun h => absurd ((hcond6 t).mp h) (by omega)) (fun h => absurd ((hcond7 t).mp h) (by omega)) (fun h => absurd ((hcond8 t).mp h) (by omega)) (fun h => absurd ((hcond9 t).mp h) (by omega)) (iblk m c 0 t))
    fun _ _ _ _ _ _ hinv => step_D (xin m c) (isBlock_iblk m c t ⟨3, by decide⟩ ht) hinv

theorem sound_E (c : Dev nD) (t : Fin cfg0.N) (ht : t.val = 4) :
    bodyPre m c t ⊢ wp frame (wpE (defs₀ (F := Ideal)) Variants.none c none) Set.univ (bodyAt0 t) (fun _ => bodyPost m c t) :=
  sound_mid m c t 3 ht (by omega) (kernelRun0_E (F := Ideal) c (grid0.coords t) (ms0_0 t) (hs0_0 t) (ms0_1 t) (hs0_1 t) scM3 (Memref.isWhole_whole _) scM4 (Memref.isWhole_whole _) scM5 (Memref.isWhole_whole _) scM6 (Memref.isWhole_whole _) scM7 (Memref.isWhole_whole _) scM8 (Memref.isWhole_whole _) ((hcoord0 t).trans ht) (fun h => absurd ((hcondI t).mp h) (by omega)) ((hcond2 t).mpr (by omega)) ((hcond3 t).mpr (by omega)) ((hcond4 t).mpr (by omega)) ((hcond5 t).mpr (by omega)) (fun h => absurd ((hcond6 t).mp h) (by omega)) (fun h => absurd ((hcond7 t).mp h) (by omega)) (fun h => absurd ((hcond8 t).mp h) (by omega)) (fun h => absurd ((hcond9 t).mp h) (by omega)) (iblk m c 0 t))
    fun _ _ _ _ _ _ hinv => step_E (xin m c) (isBlock_iblk m c t ⟨4, by decide⟩ ht) hinv

theorem sound_F (c : Dev nD) (t : Fin cfg0.N) (ht : t.val = 5) :
    bodyPre m c t ⊢ wp frame (wpE (defs₀ (F := Ideal)) Variants.none c none) Set.univ (bodyAt0 t) (fun _ => bodyPost m c t) :=
  sound_mid m c t 4 ht (by omega) (kernelRun0_F (F := Ideal) c (grid0.coords t) (ms0_0 t) (hs0_0 t) (ms0_1 t) (hs0_1 t) scM3 (Memref.isWhole_whole _) scM4 (Memref.isWhole_whole _) scM5 (Memref.isWhole_whole _) scM6 (Memref.isWhole_whole _) scM7 (Memref.isWhole_whole _) scM8 (Memref.isWhole_whole _) ((hcoord0 t).trans ht) (fun h => absurd ((hcondI t).mp h) (by omega)) ((hcond2 t).mpr (by omega)) ((hcond3 t).mpr (by omega)) ((hcond4 t).mpr (by omega)) ((hcond5 t).mpr (by omega)) ((hcond6 t).mpr (by omega)) (fun h => absurd ((hcond7 t).mp h) (by omega)) (fun h => absurd ((hcond8 t).mp h) (by omega)) (fun h => absurd ((hcond9 t).mp h) (by omega)) (iblk m c 0 t))
    fun _ _ _ _ _ _ hinv => step_F (xin m c) (isBlock_iblk m c t ⟨5, by decide⟩ ht) hinv

theorem sound_G (c : Dev nD) (t : Fin cfg0.N) (ht : t.val = 6) :
    bodyPre m c t ⊢ wp frame (wpE (defs₀ (F := Ideal)) Variants.none c none) Set.univ (bodyAt0 t) (fun _ => bodyPost m c t) :=
  sound_mid m c t 5 ht (by omega) (kernelRun0_G (F := Ideal) c (grid0.coords t) (ms0_0 t) (hs0_0 t) (ms0_1 t) (hs0_1 t) scM3 (Memref.isWhole_whole _) scM4 (Memref.isWhole_whole _) scM5 (Memref.isWhole_whole _) scM6 (Memref.isWhole_whole _) scM7 (Memref.isWhole_whole _) scM8 (Memref.isWhole_whole _) ((hcoord0 t).trans ht) (fun h => absurd ((hcondI t).mp h) (by omega)) ((hcond2 t).mpr (by omega)) ((hcond3 t).mpr (by omega)) ((hcond4 t).mpr (by omega)) ((hcond5 t).mpr (by omega)) ((hcond6 t).mpr (by omega)) ((hcond7 t).mpr (by omega)) (fun h => absurd ((hcond8 t).mp h) (by omega)) (fun h => absurd ((hcond9 t).mp h) (by omega)) (iblk m c 0 t))
    fun _ _ _ _ _ _ hinv => step_G (xin m c) (isBlock_iblk m c t ⟨6, by decide⟩ ht) hinv

set_option maxHeartbeats 4000000 in

theorem sound_H (c : Dev nD) (t : Fin cfg0.N) (ht : t.val = 7) :
    bodyPre m c t ⊢ wp frame (wpE (defs₀ (F := Ideal)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) from rfl, PhiS_succ, PhiS_castSucc m c t]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t ht], after0_1]
  rw [show PhiS m c t.val = PhiS m c (6 + 1) from by rw [ht], PhiS_succ]
  iintro ⟨⟨⟨%s3, %s4, %s5, %s6, %s7, %s8, %hinv, HS3, HS4, HS5, HS6, HS7, HS8⟩, Hg⟩, Ho, ⟨%d0, H0⟩, ⟨%d1, H1⟩⟩
  iapply ((kernelRun0_H (F := Ideal) c (grid0.coords t) (ms0_0 t) (hs0_0 t) (ms0_1 t) (hs0_1 t) scM3 (Memref.isWhole_whole _) scM4 (Memref.isWhole_whole _) scM5 (Memref.isWhole_whole _) scM6 (Memref.isWhole_whole _) scM7 (Memref.isWhole_whole _) scM8 (Memref.isWhole_whole _) ((hcoord0 t).trans ht) (fun h => absurd ((hcondI t).mp h) (by omega)) ((hcond2 t).mpr (by omega)) ((hcond3 t).mpr (by omega)) ((hcond4 t).mpr (by omega)) ((hcond5 t).mpr (by omega)) ((hcond6 t).mpr (by omega)) ((hcond7 t).mpr (by omega)) ((hcond8 t).mpr (by omega)) ((hcond9 t).mpr (by omega)) (iblk m c 0 t) s3 s4 s5 s6 s7 s8).2.2.2.2.2.2.2 Set.univ _)
  isplitl [H0]; · iexact H0
  isplitl [H1]; · iexists _; iexact H1
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, ⟨%e2, H1⟩, HS3, HS4, HS5, HS6, HS7, HS8⟩
  isplitl [HS3 HS4 HS5 HS6 HS7 HS8 Hg]
  · isplitr [Hg]
    swap; · iexact Hg
    iexists _, _, _, _, _, _
    isplitr
    swap
    isplitl [HS3]
    · unfold owns; iexists _; isplitr
      swap; · iexact HS3
      ipureintro; rfl
    isplitl [HS4]
    · unfold owns; iexists _; isplitr
      swap; · iexact HS4
      ipureintro; rfl
    isplitl [HS5]
    · unfold owns; iexists _; isplitr
      swap; · iexact HS5
      ipureintro; rfl
    isplitl [HS6]
    · unfold owns; iexists _; isplitr
      swap; · iexact HS6
      ipureintro; rfl
    isplitl [HS7]
    · unfold owns; iexists _; isplitr
      swap; · iexact HS7
      ipureintro; rfl
    · unfold owns; iexists _; isplitr
      swap; · iexact HS8
      ipureintro; rfl
    ipureintro
    rw [show t.val + 1 = 7 + 1 from by rw [ht]]
    exact step_H (xin m c) (isBlock_iblk m c t ⟨7, by decide⟩ ht) hinv
  isplitl [Ho]; · iexact Ho
  isplitl [H0]; · iexact H0
  unfold owns; iexists _; isplitr
  swap; · iexact H1
  ipureintro
  exact (out_H (xin m c) c (grid0.coords t) (ms0_0 t) (hs0_0 t) (ms0_1 t) (hs0_1 t) scM3 (Memref.isWhole_whole _) scM4 (Memref.isWhole_whole _) scM5 (Memref.isWhole_whole _) scM6 (Memref.isWhole_whole _) scM7 (Memref.isWhole_whole _) scM8 (Memref.isWhole_whole _) ((hcoord0 t).trans ht) (fun h => absurd ((hcondI t).mp h) (by omega)) ((hcond2 t).mpr (by omega)) ((hcond3 t).mpr (by omega)) ((hcond4 t).mpr (by omega)) ((hcond5 t).mpr (by omega)) ((hcond6 t).mpr (by omega)) ((hcond7 t).mpr (by omega)) ((hcond8 t).mpr (by omega)) ((hcond9 t).mpr (by omega)) (iblk m c 0 t) (isBlock_iblk m c t ⟨7, by decide⟩ ht) s3 s4 s5 s6 s7 s8 hinv e2)

theorem sound_body (c : Dev nD) (t : Fin cfg0.N) :
    bodyPre m c t ⊢ wp frame (wpE (defs₀ (F := Ideal)) Variants.none c none) Set.univ (bodyAt0 t) (fun _ => bodyPost m c t) := by
  have hN : t.val < 8 := lt_of_lt_of_eq t.isLt (show cfg0.N = 8 from N_0)
  by_cases h0 : t.val = 0; · exact sound_A m c t h0
  by_cases h1 : t.val = 1; · exact sound_B m c t h1
  by_cases h2 : t.val = 2; · exact sound_C m c t h2
  by_cases h3 : t.val = 3; · exact sound_D m c t h3
  by_cases h4 : t.val = 4; · exact sound_E m c t h4
  by_cases h5 : t.val = 5; · exact sound_F m c t h5
  by_cases h6 : t.val = 6; · exact sound_G m c t h6
  exact sound_H m c t (by omega)

theorem body_obligation (c : Dev nD) : BodyObligation (dats m 0 c) (defs₀ (F := Ideal)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 from rfl, PhiS_zero]

theorem hout (c : Dev nD) : (dats m 0 c).Φ (Fin.last cfg0.N) ⊢ Pipeline.ΦA spec0 c := by
  rw [show (dats m 0 c).Φ (Fin.last cfg0.N) = PhiS m c (7 + 1) from rfl, PhiS_succ, PhiA0_eq]
  iintro ⟨⟨%s3, %s4, %s5, %s6, %s7, %s8, -, HS3, HS4, HS5, HS6, HS7, HS8⟩, Hg⟩
  isplitr [Hg]
  swap; · iexact Hg
  isplitl [HS3]; · iexists _; iexact HS3
  isplitl [HS4]; · iexists _; iexact HS4
  isplitl [HS5]; · iexists _; iexact HS5
  isplitl [HS6]; · iexists _; iexact HS6
  isplitl [HS7]; · iexists _; iexact HS7
  iexists _; iexact HS8

set_option backward.isDefEq.respectTransparency.types false in

/-- Every weakly fair execution ends, with the pipeline's arrays at what the proof data says. -/
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Gen

end
-- ==== Proof.KFinal.lean ====
import proofs.«141847_g74552042324289_cont_9to1_m_1244_12_alg».proof.Proof.KDat
import Idealize.ShloMosaic.Lib.Pipeline.Value
import Idealize.ShloMosaic.Lib.Pipeline.FrameSuffix
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

theorem index1 : ∀ (t : Fin cfg0.N) (a : Fin 2), win0_1.index t a = 0 :=
  (by decide +kernel : ∀ (t : Fin grid0.N) (a : Fin 2), win0_1.index t a = 0)

theorem flushed1_eq (c : Dev nD) (t : Fin cfg0.N) :
    (dats m 0 c).flushed 1 t = ((cfg0.win 1).blk t).view.read (Elt Ideal) (outV m c) := by
  show (cfg0.win 1).cut (grid0.coords t) ((dats m 0 c).after 1 t) = _
  rw [after0_1]
  rfl

theorem mem_blk1 (t : Fin cfg0.N) (i : S1x1.Idx) : i ∈ ((cfg0.win 1).blk t).view.set := by
  show i ∈ ((View.whole main_v0).slice (win0_1.rect t)).set
  rw [View.set_slice_whole, Rect.mem_set_unit]
  intro a
  show win0_1.index t a * S1x1.size a ≤ (i a).val ∧ (i a).val < win0_1.index t a * S1x1.size a + S1x1.size a
  rw [index1 t a]
  have hi : (i a).val < S1x1.size a := (i a).isLt
  omega

theorem final1 (c : Dev nD) : (dats m 0 c).arrAt 1 cfg0.N = outV m c :=
  (dats m 0 c).arrAt_eq_of_cover 1 (outV m c) (fun t _ => flushed1_eq m c t)
    (fun i => ⟨t0_7, (flush0_1 t0_7).2 rfl, mem_blk1 t0_7 i⟩)

theorem main_v1_rest : main_v1 ∈ Pipeline.restRefs sig (cfgs 0).spec :=
  Pipeline.mem_restRefs_of main_v1 rfl (by decide)

/-- The result array after the run holds `kerLoss` of the input. -/
theorem post_value (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v1) = (fun _ => KoLeo.kerLoss (xin m c))
      ∧ r.2.mem ((c.tc : Thread nD τ).loc main_arg0) = m ((c.tc : Thread nD τ).loc main_arg0) := by
  refine ⟨?_, ((h c).1 0).trans (((dats m 0 c).arrAt_in 0 rfl _).trans ((A_eq m c 0).trans (V_main_arg0 m c)))⟩
  rw [(h c).2 main_v1 main_v1_rest]
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = outV m c :=
    (Pipeline.withArrays_arr spec0 launch0.win.arr_inj c _ _ 1).trans (final1 m c)
  rw [e]
  funext i
  rfl

end Cert.KernelIdeal.Gen

end
-- ==== Proof.RefValue.lean ====
import proofs.«141847_g74552042324289_cont_9to1_m_1244_12_alg».proof.Proof.Gen.ReferenceIdeal.Read
import proofs.«141847_g74552042324289_cont_9to1_m_1244_12_alg».proof.Proof.Spec
import Idealize.ShloMosaic.PureOps.Reduce
import Idealize.ShloMosaic.PureOps.Ideal.Laws
import Idealize.ShloMosaic.Lib.ValueIdx
import Mathlib.Data.Finset.Fold
import Mathlib.Order.CompleteLattice.Basic
import Mathlib.Algebra.BigOperators.Group.Finset.Defs

noncomputable section

namespace Cert.ReferenceIdeal.RefValue

open Cert.ReferenceIdeal Cert.ReferenceIdeal.Gen Cert.ReferenceIdeal.Read Idealize.ShloMosaic Idealize.ShloMosaic.ValueIdx
open scoped BigOperators

theorem idx_sq (r : Fin 4096) (k : Fin 1024) : idx_main_v1 (ix1 r) k = ix2 r k :=
  funext fun a => Fin.ext (by match a with | ⟨0, _⟩ => rfl | ⟨1, _⟩ => rfl)

theorem idx_gram_left (p c : Fin 4096) (k : Fin 1024) : lidx_main_v3 (ix2 p c) k = ix2 p k :=
  funext fun a => Fin.ext (by match a with | ⟨0, _⟩ => rfl | ⟨1, _⟩ => rfl)

theorem idx_gram_right (p c : Fin 4096) (k : Fin 1024) : idx_main_v2 (ridx_main_v3 (ix2 p c) k) = ix2 c k :=
  funext fun a => Fin.ext (by match a with | ⟨0, _⟩ => rfl | ⟨1, _⟩ => rfl)

theorem idx_row (p c : Fin 4096) : idx_main_v4 (idx_main_v6 (ix2 p c)) = ix1 p :=
  funext fun a => Fin.ext (by match a with | ⟨0, _⟩ => rfl)

theorem idx_col (p c : Fin 4096) : idx_main_v5 (idx_main_v7 (ix2 p c)) = ix1 c :=
  funext fun a => Fin.ext (by match a with | ⟨0, _⟩ => rfl)

theorem sq_at (x : KoLeo.XT) (r : Fin 4096) : val_main_v1 (F := Ideal) x (ix1 r) = KoLeo.sq x r := by
  rw [val_main_v1_apply, val_main_cst_apply]
  simp only [val_main_v0_apply, idx_sq, Ideal.ofBits_def, Ideal.mulf_def, Ideal.ofBits_zero_f32, zero_add]
  rfl

theorem gram_at (x : KoLeo.XT) (p c : Fin 4096) : val_main_v3 (F := Ideal) x (ix2 p c) = KoLeo.gram x p c := by
  rw [val_main_v3_apply]
  simp only [val_main_v2_apply, idx_gram_left, idx_gram_right]
  rfl

theorem d2_at (x : KoLeo.XT) (p c : Fin 4096) :
    val_main_v11 (F := Ideal) x (ix2 p c) = (KoLeo.sq x p + KoLeo.sq x c) - KoLeo.two * KoLeo.gram x p c := by
  rw [val_main_v11_apply, val_main_v8_apply, val_main_v10_apply, val_main_v6_apply, val_main_v4_apply, val_main_v7_apply,
    val_main_v5_apply, val_main_v9_apply, val_main_cst_0_apply, idx_row, idx_col, sq_at, sq_at, gram_at]
  rfl

theorem diag_bit (p c : Fin 4096) :
    IntOp.cmpi .eq (IntOp.addi (BitVec.ofNat 32 p.val) 0#32) (BitVec.ofNat 32 c.val) = if p = c then 1#1 else 0#1 := by
  unfold IntOp.cmpi IntOp.addi
  rw [BitVec.add_zero]
  by_cases h : p = c
  · subst h; simp
  · rw [if_neg h]
    have hne : BitVec.ofNat 32 p.val ≠ BitVec.ofNat 32 c.val := by
      intro e
      have e' := congrArg BitVec.toNat e
      simp only [BitVec.toNat_ofNat] at e'
      have hp := p.isLt
      have hc := c.isLt
      exact h (Fin.ext (by omega))
    have hb : (BitVec.ofNat 32 p.val == BitVec.ofNat 32 c.val) = false := beq_eq_false_iff_ne.mpr hne
    rw [hb]; rfl

theorem masked_at (x : KoLeo.XT) (p c : Fin 4096) : val_main_v19 (F := Ideal) x (ix2 p c) = KoLeo.refD2 x p c := by
  rw [val_main_v19_apply, val_main_v18_apply, val_main_v17_apply, val_main_v14_apply, val_main_v15_apply, val_main_v16_apply,
    val_main_c_apply, val_main_call0_v1_apply, val_main_call0_v0_apply, val_main_cst_2_apply, val_main_v13_apply,
    val_main_v12_apply, val_main_cst_1_apply, d2_at]
  show Scalar.select (IntOp.cmpi .eq (IntOp.addi (BitVec.ofNat 32 p.val) 0#32) (BitVec.ofNat 32 c.val)) _ _ = _
  rw [diag_bit]
  unfold KoLeo.refD2
  by_cases h : p = c
  · rw [if_pos h, if_pos h, select_one]; rfl
  · rw [if_neg h, if_neg h, select_zero]; rfl

theorem dist_at (x : KoLeo.XT) (p c : Fin 4096) :
    val_main_v20 (F := Ideal) x (ix2 p c) = Ideal.sqrt (KoLeo.refD2 x p c) := by
  rw [val_main_v20_apply, masked_at]; rfl

theorem fold_min_top {ι : Type} [Fintype ι] (f : ι → EReal) : Finset.univ.fold min (⊤ : EReal) f = ⨅ c, f c :=
  eq_of_forall_le_iff fun a => by
    rw [Finset.le_fold_min, le_iInf_iff]
    exact ⟨fun h c => h.2 c (Finset.mem_univ c), fun h => ⟨le_top, fun c _ => h c⟩⟩

theorem pinf_top : Ideal.ofBits .f32 0x7F800000#32 = ⊤ := by simp [Ideal.ofBits, Ideal.ieee]

theorem lift_row (h : S4096x4096.Reduces [1] S4096) (p : Fin 4096) (k : Fin 4096) :
    h.lift (ix1 p) k = ix2 p k :=
  funext fun a => Fin.ext (by match a with | ⟨0, _⟩ => rfl | ⟨1, _⟩ => rfl)

theorem rowmin_at (x : KoLeo.XT) (p : Fin 4096) : val_main_v21 (F := Ideal) x (ix1 p) = KoLeo.refMin x p := by
  have h : S4096x4096.Reduces [1] S4096 := by decide
  unfold val_main_v21
  refine (Host.reduce_eq_fold_single (FloatOps.minimumf (F := Ideal) (φ := .f32)) (val_main_v20 (F := Ideal) x) (val_main_cst_3 (F := Ideal))
    reducesTo_S4096x4096_S4096_d1 h h_S_ (ix1 p)).trans ?_
  show Finset.fold min (Ideal.ofBits .f32 0x7F800000#32) (val_main_v20 (F := Ideal) x ∘ h.lift (ix1 p)) Finset.univ = _
  rw [pinf_top]
  refine (fold_min_top _).trans ?_
  show (⨅ k : Fin 4096, val_main_v20 (F := Ideal) x (h.lift (ix1 p) k)) = _
  unfold KoLeo.refMin
  refine iInf_congr fun k => ?_
  rw [lift_row h p k, dist_at]

theorem log_at (x : KoLeo.XT) (p : Fin 4096) :
    val_main_v24 (F := Ideal) x (ix1 p) = Ideal.log (KoLeo.refMin x p + KoLeo.eps) := by
  rw [val_main_v24_apply, val_main_v23_apply, val_main_v22_apply, val_main_cst_4_apply, rowmin_at]
  rfl

def rowEquiv : Fin 4096 ≃ S4096.Idx where
  toFun := ix1
  invFun j := j 0
  left_inv _ := rfl
  right_inv j := (eq_ix1 j).symm

/-- The reference program's result is `refLoss` of its input, stage by stage. -/
theorem ref_value (x : KoLeo.XT) : Cert.ReferenceIdeal.Read.val_main_v27 (F := Ideal) x = fun _ => KoLeo.refLoss x := by
  funext i
  rw [val_main_v27_apply, val_main_v26_apply, val_main_v25_apply, val_main_cst_5_apply, val_main_cst_6_apply]
  have hsum : ∑ j : S4096.Idx, val_main_v24 (F := Ideal) x j
      = ∑ p : Fin 4096, Ideal.log (KoLeo.refMin x p + KoLeo.eps) :=
    (Fintype.sum_equiv rowEquiv _ _ fun p => (log_at x p).symm).symm
  rw [hsum]
  rfl

end Cert.ReferenceIdeal.RefValue

end
-- ==== Proof.Bridge.lean ====
import proofs.«141847_g74552042324289_cont_9to1_m_1244_12_alg».proof.Proof.Spec
import Mathlib.Data.EReal.Operations
import Mathlib.Analysis.Real.Sqrt
import Mathlib.Order.CompleteLattice.Basic
import Mathlib.Order.ConditionallyCompleteLattice.Finset

noncomputable section

namespace KoLeo

open Idealize.ShloMosaic Idealize.ShloMosaic.ValueIdx
open scoped BigOperators

theorem m2_eq : m2 = ((-2 : ℝ) : EReal) := by
  simp [m2, Ideal.ofBits, Ideal.ieee, -EReal.coe_mul]; norm_num

theorem two_eq : two = ((2 : ℝ) : EReal) := by
  simp [two, Ideal.ofBits, Ideal.ieee, -EReal.coe_mul]; norm_num

theorem z0_eq : z0 = 0 := by simp [z0, Ideal.ofBits, Ideal.ieee]

theorem pinf_eq : pinf = ⊤ := by simp [pinf, Ideal.ofBits, Ideal.ieee]

theorem nF_eq : nF = ((4096 : ℝ) : EReal) := by
  simp [nF, Ideal.ofBits, Ideal.ieee, -EReal.coe_mul]; norm_num

theorem negInvN_eq : negInvN = ((-(1 / 4096) : ℝ) : EReal) := by
  simp [negInvN, Ideal.ofBits, Ideal.ieee, -EReal.coe_mul]; norm_num

theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem add_coe_add_neg (y : EReal) (b : ℝ) : y + (b : EReal) + ((-b : ℝ) : EReal) = y := by
  rw [add_assoc, ← EReal.coe_add, add_neg_cancel, EReal.coe_zero, add_zero]

theorem iInf_add_coe {ι : Sort _} (f : ι → EReal) (a : ℝ) :
    (⨅ i, f i) + (a : EReal) = ⨅ i, (f i + (a : EReal)) := by
  apply le_antisymm
  · exact le_iInf fun i => add_le_add (iInf_le f i) le_rfl
  · have h : (⨅ i, (f i + (a : EReal))) + ((-a : ℝ) : EReal) ≤ ⨅ i, f i :=
      le_iInf fun i =>
        calc (⨅ j, (f j + (a : EReal))) + ((-a : ℝ) : EReal)
            ≤ (f i + (a : EReal)) + ((-a : ℝ) : EReal) := add_le_add (iInf_le _ i) le_rfl
          _ = f i := add_coe_add_neg _ _
    calc (⨅ i, (f i + (a : EReal)))
        = (⨅ i, (f i + (a : EReal))) + ((-a : ℝ) : EReal) + ((-(-a) : ℝ) : EReal) := (add_coe_add_neg _ _).symm
      _ ≤ (⨅ i, f i) + ((-(-a) : ℝ) : EReal) := add_le_add h le_rfl
      _ = (⨅ i, f i) + (a : EReal) := by rw [neg_neg]

/-- A row's minimum over all columns splits by band: the bands up to its own, and the later ones. -/
theorem min_band_eq (E : Fin 4096 → EReal) (p : Fin 4096) :
    min (⨅ c : {c : Fin 4096 // c.val / 256 ≤ p.val / 256}, E c.1)
        (⨅ r : {r : Fin 4096 // p.val / 256 < r.val / 256}, E r.1) = ⨅ c, E c := by
  rw [iInf_subtype, iInf_subtype, iInf_split E (fun c => c.val / 256 ≤ p.val / 256)]
  simp only [not_le]

theorem sqrt_mono : Monotone Ideal.sqrt := by
  intro y z hyz
  induction y using EReal.rec with
  | bot => simp
  | top => rw [top_le_iff.mp hyz]
  | coe r =>
    induction z using EReal.rec with
    | bot => exact absurd hyz (by simp)
    | top => simp
    | coe s =>
      have hrs : r ≤ s := EReal.coe_le_coe_iff.mp hyz
      rw [Ideal.sqrt_coe, Ideal.sqrt_coe]
      by_cases hr : r < 0
      · rw [if_pos hr]; exact bot_le
      · have hs : ¬ s < 0 := not_lt.mpr (le_trans (not_lt.mp hr) hrs)
        rw [if_neg hr, if_neg hs]
        exact EReal.coe_le_coe_iff.mpr (Real.sqrt_le_sqrt hrs)

theorem mono_iInf_rows {g : EReal → EReal} (hg : Monotone g) (E : Fin 4096 → EReal) :
    g (⨅ c, E c) = ⨅ c, g (E c) := by
  obtain ⟨c0, hc0⟩ := exists_eq_ciInf_of_finite (f := E)
  apply le_antisymm hg.map_iInf_le
  rw [← hc0]
  exact iInf_le (fun c => g (E c)) c0

section Reals

variable (x : XT) (a : (⟨2, ![4096, 1024]⟩ : Shape).Idx → ℝ)

def sqR (r : Fin 4096) : ℝ := ∑ k : Fin 1024, a (ix2 r k) * a (ix2 r k)

def gramR (r c : Fin 4096) : ℝ := ∑ k : Fin 1024, a (ix2 r k) * a (ix2 c k)

def dist2 (p c : Fin 4096) : ℝ := (sqR a p + sqR a c) - 2 * gramR a p c

def entry (p c : Fin 4096) : EReal := if p = c then ⊤ else (dist2 a p c : EReal)

theorem gramR_comm (r c : Fin 4096) : gramR a r c = gramR a c r :=
  Finset.sum_congr rfl fun _ _ => mul_comm _ _

variable (ha : ∀ i, x i = (a i : EReal))
include ha

theorem sq_coe (r : Fin 4096) : sq x r = (sqR a r : EReal) := by
  rw [sq, sqR, coe_sum]
  exact Finset.sum_congr rfl fun k _ => by rw [ha, EReal.coe_mul]

theorem gram_coe (r c : Fin 4096) : gram x r c = (gramR a r c : EReal) := by
  rw [gram, gramR, coe_sum]
  exact Finset.sum_congr rfl fun k _ => by rw [ha (ix2 r k), ha (ix2 c k), EReal.coe_mul]

theorem gp_coe (r c : Fin 4096) : gp x r c = ((-2 * gramR a r c : ℝ) : EReal) := by
  rw [gp, gramR, Finset.mul_sum, coe_sum]
  refine Finset.sum_congr rfl fun k _ => ?_
  rw [ha (ix2 r k), ha (ix2 c k), m2_eq, ← EReal.coe_mul, ← EReal.coe_mul]
  congr 1; ring

theorem rowE_add (p c : Fin 4096) : rowE x p c + sq x p = entry a p c := by
  rw [rowE, entry, pinf_eq]
  simp only [sq_coe x a ha, gp_coe x a ha]
  split_ifs with h
  · exact EReal.top_add_coe _
  · rw [← EReal.coe_add, ← EReal.coe_add, dist2]
    congr 1; ring

theorem colE_add (p r : Fin 4096) (h : p ≠ r) : colE x r p + sq x p = entry a p r := by
  rw [colE, entry, if_neg h]
  simp only [sq_coe x a ha, gp_coe x a ha]
  rw [← EReal.coe_add, ← EReal.coe_add, dist2, gramR_comm a r p]
  congr 1; ring

theorem refD2_eq (p c : Fin 4096) : refD2 x p c = max (entry a p c) 0 := by
  rw [refD2, entry, pinf_eq, z0_eq]
  split_ifs with h
  · exact (max_eq_left le_top).symm
  · simp only [sq_coe x a ha, gram_coe x a ha, two_eq]
    rw [← EReal.coe_add, ← EReal.coe_mul, ← EReal.coe_sub, dist2]

theorem kerMd2_eq (p : Fin 4096) : kerMd2 x p = max (⨅ c, entry a p c) 0 := by
  have hrow : rowMin x p + sq x p
      = ⨅ c : {c : Fin 4096 // c.val / 256 ≤ p.val / 256}, entry a p c.1 := by
    rw [rowMin, sq_coe x a ha p, iInf_add_coe]
    exact iInf_congr fun c => by rw [← sq_coe x a ha p]; exact rowE_add x a ha p c.1
  have hcol : colMin x p + sq x p
      = ⨅ r : {r : Fin 4096 // p.val / 256 < r.val / 256}, entry a p r.1 := by
    rw [colMin, sq_coe x a ha p, iInf_add_coe]
    exact iInf_congr fun r => by
      rw [← sq_coe x a ha p]
      refine colE_add x a ha p r.1 fun h => ?_
      have hr := r.2
      rw [← h] at hr
      exact lt_irrefl _ hr
  rw [kerMd2, hrow, hcol, min_band_eq, z0_eq]

theorem sqrt_kerMd2_eq (p : Fin 4096) : Ideal.sqrt (kerMd2 x p) = refMin x p := by
  have hg : Monotone fun y : EReal => Ideal.sqrt (max y 0) :=
    fun _ _ h => sqrt_mono (max_le_max h le_rfl)
  rw [kerMd2_eq x a ha, refMin]
  exact (mono_iInf_rows hg _).trans (iInf_congr fun c => by rw [refD2_eq x a ha])

end Reals

/-- On finite inputs the distance matrix is symmetric, so the later bands of a row are its column side; clamping, the square root and the closing scalings agree on both sides. -/
theorem kerLoss_eq_refLoss (x : XT) (hfin : ∀ i, ∃ a : ℝ, x i = (a : EReal)) : kerLoss x = refLoss x := by
  choose a ha using hfin
  rw [kerLoss, refLoss]
  simp only [sqrt_kerMd2_eq x a ha]
  rw [z0_eq, zero_add, nF_eq, negInvN_eq, Ideal.div_coe (by norm_num : (4096 : ℝ) ≠ 0), EReal.coe_neg, mul_neg]

end KoLeo

end
-- ==== Proof.Finite.lean ====
import proofs.«141847_g74552042324289_cont_9to1_m_1244_12_alg».proof.Defs
import proofs.«141847_g74552042324289_cont_9to1_m_1244_12_alg».proof.Proof.Gen.Pre_finite_inputs
import Idealize.ShloMosaic.Lib.ReduceAll
import Idealize.ShloMosaic.Lib.IdealHost
import Idealize.ShloMosaic.Lib.ValueIdx
import Idealize.ShloMosaic.PureOps.Ideal.Laws

namespace Cert.Proof.Finite

open Idealize.ShloMosaic Idealize.ShloMosaic.ValueIdx

theorem ofBits_pinf : Ideal.ofBits .f32 0x7F800000#32 = (⊤ : EReal) := by
  simp [Ideal.ofBits, Ideal.ieee]

theorem cmp_olt_eq_one {a b : EReal} : Ideal.cmp .olt a b = 1#1 ↔ a < b := by
  unfold Ideal.cmp
  by_cases hab : a < b <;> simp [hab]

instance subsingleton_scalarIdx : Subsingleton Cert.Pre_finite_inputs.S_.Idx :=
  ⟨fun _ _ => funext fun d => d.elim0⟩

theorem exists_real_of_abs_lt_top (a : EReal) (h : max a (-a) < ⊤) : ∃ r : ℝ, a = (r : EReal) := by
  induction a using EReal.rec with
  | bot => simp at h
  | coe r => exact ⟨r, rfl⟩
  | top => simp at h

theorem abs_lt_top [hP : Cert.Pre_finite_inputs.Facts] (x : FVec Ideal Cert.Pre_finite_inputs.S4096x1024 .f32)
    (h : Cert.Pre_finite_inputs.fn (F := Ideal) x = (fun _ => 1#1)) (i : Cert.Pre_finite_inputs.S4096x1024.Idx) :
    max (x i) (-(x i)) < (⊤ : EReal) := by
  have h0 := congrFun h ix0
  dsimp only [Cert.Pre_finite_inputs.fn] at h0
  have hi := Host.reduce_andi_all _ _ _ _ _ h0 i

  rw [cmpf_apply, broadcastInDim_scalar_apply, constant_apply, ofBits_pinf, Ideal.cmpf_def, cmp_olt_eq_one] at hi

  exact hi

/-- The precondition makes every entry a real number. -/
theorem real_of_pre [hP : Cert.Pre_finite_inputs.Facts] (x : FVec Ideal Cert.Pre_finite_inputs.S4096x1024 .f32)
    (h : Cert.Pre_finite_inputs.fn (F := Ideal) x = (fun _ => 1#1)) : ∀ i, ∃ a : ℝ, x i = (a : EReal) :=
  fun i => exists_real_of_abs_lt_top (x i) (abs_lt_top x h i)

end Cert.Proof.Finite
-- ==== Proof.lean ====
import proofs.«141847_g74552042324289_cont_9to1_m_1244_12_alg».proof.Defs
import proofs.«141847_g74552042324289_cont_9to1_m_1244_12_alg».proof.Proof.Gen.Kernel
import proofs.«141847_g74552042324289_cont_9to1_m_1244_12_alg».proof.Proof.Gen.KernelIdeal
import proofs.«141847_g74552042324289_cont_9to1_m_1244_12_alg».proof.Proof.Gen.ReferenceIdeal
import proofs.«141847_g74552042324289_cont_9to1_m_1244_12_alg».proof.Proof.Gen.Pre_finite_inputs
import proofs.«141847_g74552042324289_cont_9to1_m_1244_12_alg».proof.Proof.Gen.ReferenceIdeal.Run
import proofs.«141847_g74552042324289_cont_9to1_m_1244_12_alg».proof.Proof.Gen.ReferenceIdeal.Read
import proofs.«141847_g74552042324289_cont_9to1_m_1244_12_alg».proof.Proof.KBBody
import proofs.«141847_g74552042324289_cont_9to1_m_1244_12_alg».proof.Proof.KBody
import proofs.«141847_g74552042324289_cont_9to1_m_1244_12_alg».proof.Proof.KFinal
import proofs.«141847_g74552042324289_cont_9to1_m_1244_12_alg».proof.Proof.RefValue
import proofs.«141847_g74552042324289_cont_9to1_m_1244_12_alg».proof.Proof.Bridge
import proofs.«141847_g74552042324289_cont_9to1_m_1244_12_alg».proof.Proof.Finite
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_p : Cert.frame_Kernel := fun m ρ _ => Cert.Kernel.Gen.frame m ρ

theorem frame_pi : Cert.frame_KernelIdeal := fun m ρ _ =>
  Cert.KernelIdeal.Gen.frame_of m ρ (Cert.KernelIdeal.Gen.dats m) (Cert.KernelIdeal.Gen.A_eq m) (Cert.KernelIdeal.Gen.run_main m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the loss of the common input: `kerLoss` on the kernel's side, `refLoss` on the reference's, equal on an input of reals. -/
theorem algebraic : Cert.algebraic_KernelIdeal_ReferenceIdeal := by
  intro m ρ m' ρ' hpre hagree
  refine ⟨fun c => (fun _ => KoLeo.kerLoss (Cert.KernelIdeal.Gen.xin m c)), ?_, ?_⟩
  · exact (θ_run Cert.KernelIdeal.defs _ _).mono (fun r h c => Cert.KernelIdeal.Gen.post_value m r h c)
      (Cert.KernelIdeal.Gen.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v27_eq, hagree c]
    have hfin : ∀ i, ∃ a : ℝ, Cert.KernelIdeal.Gen.xin m c i = (a : EReal) :=
      Cert.Proof.Finite.real_of_pre (Cert.KernelIdeal.Gen.xin m c) (hpre c)
    exact (Cert.ReferenceIdeal.RefValue.ref_value (Cert.KernelIdeal.Gen.xin m c)).trans
      (funext fun _ => (KoLeo.kerLoss_eq_refLoss _ hfin).symm)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
